-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1x128 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1x128 .f32 := Host.absf main_arg14
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S128x128 .f32) (main_arg11 : FVec F S128 .f32) (main_arg12 : FVec F S128x128 .f32) (main_arg13 : FVec F S128 .f32) (main_arg14 : FVec F S1x128 .f32) (main_arg15 : FVec F S1 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S1x128 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S1x128 .f32) (main_arg15 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S100000x2 : Shape := ⟨2, ![100000, 2]⟩
abbrev S64 : Shape := ⟨1, ![64]⟩
abbrev S64x1 : Shape := ⟨2, ![64, 1]⟩
abbrev S4000x128 : Shape := ⟨2, ![4000, 128]⟩
abbrev S4000x1 : Shape := ⟨2, ![4000, 1]⟩
abbrev S1600000x128 : Shape := ⟨2, ![1600000, 128]⟩
abbrev S4000x2 : Shape := ⟨2, ![4000, 2]⟩
abbrev S1x1 : Shape := ⟨2, ![1, 1]⟩
abbrev S64x128 : Shape := ⟨2, ![64, 128]⟩

abbrev nBuf : Space → Nat
  | .hbm => 143
  | .vmem => 51
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S1x128, .f32⟩
  | 15 => ⟨S1, .f32⟩
  | 16 => ⟨S_, .f32⟩
  | 17 => ⟨S1600000, .f32⟩
  | 18 => ⟨S_, .f32⟩
  | 19 => ⟨S100000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S100000, .f32⟩
  | 44 => ⟨S_, .f32⟩
  | 45 => ⟨S_, .f32⟩
  | 46 => ⟨S100000, .f32⟩
  | 47 => ⟨S100000, .f32⟩
  | 48 => ⟨S100000, .f32⟩
  | 49 => ⟨S100000x1, .f32⟩
  | 50 => ⟨S100000, .f32⟩
  | 51 => ⟨S100000x1, .f32⟩
  | 52 => ⟨S100000x2, .f32⟩
  | 53 => ⟨S_, .f32⟩
  | 54 => ⟨S100000, .f32⟩
  | 55 => ⟨S_, .f32⟩
  | 56 => ⟨S64, .f32⟩
  | 57 => ⟨S100000x1, .i32⟩
  | 58 => ⟨S64, .f32⟩
  | 59 => ⟨S64x1, .f32⟩
  | 60 => ⟨S100000x128, .bf16⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .bf16⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S1x128, .f32⟩
  | 76 => ⟨S100000x128, .bf16⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .bf16⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S1x128, .f32⟩
  | 92 => ⟨S100000x128, .bf16⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .bf16⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S1x128, .f32⟩
  | 108 => ⟨S100000x128, .bf16⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .bf16⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S1x128, .f32⟩
  | 124 => ⟨S100000x128, .bf16⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .bf16⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S1x128, .f32⟩
  | 12 => ⟨S100000x1, .i32⟩
  | 13 => ⟨S1x1, .f32⟩
  | 14 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .bf16⟩
  | .local _ .vmem, ⟨5, _⟩ => ⟨S4000x128, .bf16⟩
  | .local _ .vmem, ⟨6, _⟩ => ⟨S4000x128, .f32⟩
  | .local _ .vmem, ⟨7, _⟩ => ⟨S4000x128, .f32⟩
  | .local _ .vmem, ⟨8, _⟩ => ⟨S4000x2, .f32⟩
  | .local _ .vmem, ⟨9, _⟩ => ⟨S4000x2, .f32⟩
  | .local _ .vmem, ⟨10, _⟩ => ⟨S128x128, .f32⟩
  | .local _ .vmem, ⟨11, _⟩ => ⟨S1x128, .f32⟩
  | .local _ .vmem, ⟨12, _⟩ => ⟨S4000x128, .bf16⟩
  | .local _ .vmem, ⟨13, _⟩ => ⟨S4000x128, .bf16⟩
  | .local _ .vmem, ⟨14, _⟩ => ⟨S4000x128, .f32⟩
  | .local _ .vmem, ⟨15, _⟩ => ⟨S4000x128, .f32⟩
  | .local _ .vmem, ⟨16, _⟩ => ⟨S4000x2, .f32⟩
  | .local _ .vmem, ⟨17, _⟩ => ⟨S4000x2, .f32⟩
  | .local _ .vmem, ⟨18, _⟩ => ⟨S128x128, .f32⟩
  | .local _ .vmem, ⟨19, _⟩ => ⟨S1x128, .f32⟩
  | .local _ .vmem, ⟨20, _⟩ => ⟨S4000x128, .bf16⟩
  | .local _ .vmem, ⟨21, _⟩ => ⟨S4000x128, .bf16⟩
  | .local _ .vmem, ⟨22, _⟩ => ⟨S4000x128, .f32⟩
  | .local _ .vmem, ⟨23, _⟩ => ⟨S4000x128, .f32⟩
  | .local _ .vmem, ⟨24, _⟩ => ⟨S4000x2, .f32⟩
  | .local _ .vmem, ⟨25, _⟩ => ⟨S4000x2, .f32⟩
  | .local _ .vmem, ⟨26, _⟩ => ⟨S128x128, .f32⟩
  | .local _ .vmem, ⟨27, _⟩ => ⟨S1x128, .f32⟩
  | .local _ .vmem, ⟨28, _⟩ => ⟨S4000x128, .bf16⟩
  | .local _ .vmem, ⟨29, _⟩ => ⟨S4000x128, .bf16⟩
  | .local _ .vmem, ⟨30, _⟩ => ⟨S4000x128, .f32⟩
  | .local _ .vmem, ⟨31, _⟩ => ⟨S4000x128, .f32⟩
  | .local _ .vmem, ⟨32, _⟩ => ⟨S4000x2, .f32⟩
  | .local _ .vmem, ⟨33, _⟩ => ⟨S4000x2, .f32⟩
  | .local _ .vmem, ⟨34, _⟩ => ⟨S128x128, .f32⟩
  | .local _ .vmem, ⟨35, _⟩ => ⟨S1x128, .f32⟩
  | .local _ .vmem, ⟨36, _⟩ => ⟨S4000x128, .bf16⟩
  | .local _ .vmem, ⟨37, _⟩ => ⟨S4000x128, .bf16⟩
  | .local _ .vmem, ⟨38, _⟩ => ⟨S4000x128, .f32⟩
  | .local _ .vmem, ⟨39, _⟩ => ⟨S4000x128, .f32⟩
  | .local _ .vmem, ⟨40, _⟩ => ⟨S4000x2, .f32⟩
  | .local _ .vmem, ⟨41, _⟩ => ⟨S4000x2, .f32⟩
  | .local _ .vmem, ⟨42, _⟩ => ⟨S128x128, .f32⟩
  | .local _ .vmem, ⟨43, _⟩ => ⟨S1x128, .f32⟩
  | .local _ .vmem, ⟨44, _⟩ => ⟨S4000x1, .i32⟩
  | .local _ .vmem, ⟨45, _⟩ => ⟨S4000x1, .i32⟩
  | .local _ .vmem, ⟨46, _⟩ => ⟨S64x1, .f32⟩
  | .local _ .vmem, ⟨47, _⟩ => ⟨S1x128, .f32⟩
  | .local _ .vmem, ⟨48, _⟩ => ⟨S1x1, .f32⟩
  | .local _ .vmem, ⟨49, _⟩ => ⟨S64x1, .f32⟩
  | .local _ .vmem, ⟨50, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v9 : Ref sig .tc := ⟨.hbm, 32, rfl⟩
abbrev main_cst_3 : Ref sig .tc := ⟨.hbm, 33, rfl⟩
abbrev main_v10 : Ref sig .tc := ⟨.hbm, 34, rfl⟩
abbrev main_c_4 : Ref sig .tc := ⟨.hbm, 35, rfl⟩
abbrev main_v11 : Ref sig .tc := ⟨.hbm, 36, rfl⟩
abbrev main_v12 : Ref sig .tc := ⟨.hbm, 37, rfl⟩
abbrev main_c_5 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_7 : Ref sig .tc := ⟨.hbm, 53, rfl⟩
abbrev main_v24 : Ref sig .tc := ⟨.hbm, 54, rfl⟩
abbrev main_cst_8 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_9 : Ref sig .tc := ⟨.hbm, 61, rfl⟩
abbrev main_v30 : Ref sig .tc := ⟨.hbm, 62, rfl⟩
abbrev main_v31 : Ref sig .tc := ⟨.hbm, 63, rfl⟩
abbrev main_c_10 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_11 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_12 : Ref sig .tc := ⟨.hbm, 77, rfl⟩
abbrev main_v43 : Ref sig .tc := ⟨.hbm, 78, rfl⟩
abbrev main_v44 : Ref sig .tc := ⟨.hbm, 79, rfl⟩
abbrev main_c_13 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_14 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_c_15 : Ref sig .tc := ⟨.hbm, 93, rfl⟩
abbrev main_v56 : Ref sig .tc := ⟨.hbm, 94, rfl⟩
abbrev main_v57 : Ref sig .tc := ⟨.hbm, 95, rfl⟩
abbrev main_c_16 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_17 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_c_18 : Ref sig .tc := ⟨.hbm, 109, rfl⟩
abbrev main_v69 : Ref sig .tc := ⟨.hbm, 110, rfl⟩
abbrev main_v70 : Ref sig .tc := ⟨.hbm, 111, rfl⟩
abbrev main_c_19 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_20 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_21 : Ref sig .tc := ⟨.hbm, 125, rfl⟩
abbrev main_v82 : Ref sig .tc := ⟨.hbm, 126, rfl⟩
abbrev main_v83 : Ref sig .tc := ⟨.hbm, 127, rfl⟩
abbrev main_c_22 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_23 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc5_stg5_0 : Ref sig .tc := ⟨.vmem, 46, rfl⟩
abbrev cc5_stg6_0 : Ref sig .tc := ⟨.vmem, 47, rfl⟩
abbrev cc5_stg7_0 : Ref sig .tc := ⟨.vmem, 48, rfl⟩
abbrev cc5_stg8_0 : Ref sig .tc := ⟨.vmem, 49, rfl⟩
abbrev cc5_scratch0 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem4_1 : DmaSem sig := 45
abbrev cc5_sem5_0 : DmaSem sig := 46
abbrev cc5_sem6_0 : DmaSem sig := 47
abbrev cc5_sem7_0 : DmaSem sig := 48
abbrev cc5_sem8_0 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x2 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def k5_cond2 (i : grid5.Coords) : BitVec 1 :=
  let arg0 : BitVec 32 := BitVec.ofNat 32 (i 0).val
  let c24_i32 : BitVec 32 := 24#32
  let v34 : BitVec 1 := Scalar.cmpi .eq arg0 c24_i32
  let v35 : BitVec 32 := Scalar.extui v34
  let c0_i32_15 : BitVec 32 := 0#32
  let v36 : BitVec 1 := Scalar.cmpi .ne v35 c0_i32_15
  v36

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x1 .i32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S64x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S_S64 : S_.BroadcastsInDim S64 (![] : Fin 0 → Fin S64.rank)
  shapeCasts_S64_S64x1 : S64.ShapeCasts S64x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  slices_S4000x2_o0_1_S4000x1 : S4000x2.Slices ![0, 1] S4000x1
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S100000_S100000x1 : S100000.ShapeCasts S100000x1
  shapeCasts_S1_S1x1 : S1.ShapeCasts S1x1
  shapeCasts_S128x128_S128x128 : S128x128.ShapeCasts S128x128
  iota_S1x128_d1_w32 : S1x128.Iotas .tc 32 [1]
  natLt_1_32 : 1 < 32
  inb_S128x128_S64x128_0_0 : ∀ a, (![0, 0] : Fin 2 → Nat) a + S64x128.size a ≤ S128x128.size a
  h_S64x128 : 0 < S64x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  broadcasts_S1x128_S64x128 : S1x128.Broadcasts S64x128
  reduces_S64x128_S64 : S64x128.Reduces [1] S64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S1600000x1_S1600000_n_0_0_1_wf : ScatterDims.WF S100000 S1600000x1 S1600000 [] [0] [0] 1
  scatter_S64_S100000x1_S100000_n_0_0_1_wf : ScatterDims.WF S64 S100000x1 S100000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S4000x128_S128x128_0_0_1_1_n_n_wf : DotDims.WF S4000x128 S4000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x2.size a ≤ S100000x2.size a
  hwx1_1 : ∀ i : grid1.Coords, EltTy.bits .f32 = 32 ∨ (Rect.block (s := S100000x2) S4000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .bf16 = 32 ∨ (Rect.block (s := S100000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x2.size a ≤ S100000x2.size a
  hwx2_1 : ∀ i : grid2.Coords, EltTy.bits .f32 = 32 ∨ (Rect.block (s := S100000x2) S4000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .bf16 = 32 ∨ (Rect.block (s := S100000x128) S4000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x2.size a ≤ S100000x2.size a
  hwx3_1 : ∀ i : grid3.Coords, EltTy.bits .f32 = 32 ∨ (Rect.block (s := S100000x2) S4000x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .bf16 = 32 ∨ (Rect.block (s := S100000x128) S4000x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x2.size a ≤ S100000x2.size a
  hwx4_1 : ∀ i : grid4.Coords, EltTy.bits .f32 = 32 ∨ (Rect.block (s := S100000x2) S4000x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S100000x128.size a
  hwx4_4 : ∀ i : grid4.Coords, EltTy.bits .bf16 = 32 ∨ (Rect.block (s := S100000x128) S4000x128.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x2.size a ≤ S100000x2.size a
  hwx5_1 : ∀ i : grid5.Coords, EltTy.bits .f32 = 32 ∨ (Rect.block (s := S100000x2) S4000x2.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x1.size a ≤ S100000x1.size a
  hwx5_4 : ∀ i : grid5.Coords, EltTy.bits .i32 = 32 ∨ (Rect.block (s := S100000x1) S4000x1.size (cc5_transform_4 i) (hinb5_4 i)).WholeWords (EltTy.packing .i32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x1.size a ≤ S64x1.size a
  hwx5_5 : ∀ i : grid5.Coords, EltTy.bits .f32 = 32 ∨ (Rect.block (s := S64x1) S64x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x1.size a ≤ S1x1.size a
  hwx5_7 : ∀ i : grid5.Coords, EltTy.bits .f32 = 32 ∨ (Rect.block (s := S1x1) S1x1.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64x1.size a ≤ S64x1.size a
  hwx5_8 : ∀ i : grid5.Coords, EltTy.bits .f32 = 32 ∨ (Rect.block (s := S64x1) S64x1.size (cc5_transform_8 i) (hinb5_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S4000x128_S128x128_0_0_1_1_n_n : DotDims S4000x128 S4000x128 S128x128 where
  lhsContracting := [0]
  rhsContracting := [0]
  lhsNonContracting := [1]
  rhsNonContracting := [1]
  lhsBatch := []
  rhsBatch := []
  wf := dot_S4000x128_S4000x128_S128x128_0_0_1_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S4000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v66) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S4000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v79) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S4000x2.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S4000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v92) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S4000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v94) S4000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v28) S64x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg14) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v95) S1x1.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v96) S64x1.size cc5_transform_8 reads5_8 true true 1 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev idle5 : Fin 9 → grid5.Coords → Bool := fun | 0 => fun _ => false | 1 => fun _ => false | 2 => fun _ => false | 3 => fun _ => false | 4 => fun _ => false | 5 => fun _ => false | 6 => fun _ => false | 7 => fun _ => false | 8 => fun i => !(k5_cond2 i == 1#1) | ⟨_ + 9, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S64x128 : Shape := ⟨2, ![64, 128]⟩
abbrev S64 : Shape := ⟨1, ![64]⟩
abbrev S64x1 : Shape := ⟨2, ![64, 1]⟩
abbrev S128x1 : Shape := ⟨2, ![128, 1]⟩
abbrev S1x1 : Shape := ⟨2, ![1, 1]⟩

abbrev nBuf : Space → Nat
  | .hbm => 187
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S1x128, .f32⟩
  | 15 => ⟨S1, .f32⟩
  | 16 => ⟨S_, .f32⟩
  | 17 => ⟨S1600000, .f32⟩
  | 18 => ⟨S_, .f32⟩
  | 19 => ⟨S100000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S100000, .f32⟩
  | 44 => ⟨S_, .f32⟩
  | 45 => ⟨S_, .f32⟩
  | 46 => ⟨S100000, .f32⟩
  | 47 => ⟨S100000, .f32⟩
  | 48 => ⟨S100000, .f32⟩
  | 49 => ⟨S100000x1, .f32⟩
  | 50 => ⟨S100000, .f32⟩
  | 51 => ⟨S100000x1, .f32⟩
  | 52 => ⟨S100000x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S100000x128, .f32⟩
  | 74 => ⟨S100000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S100000x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S100000x128, .f32⟩
  | 95 => ⟨S100000x128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S100000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S_, .f32⟩
  | 127 => ⟨S100000x128, .f32⟩
  | _ => ⟨S100000x128, .f32⟩

abbrev hbmTy0_1 (i : Nat) : BufTy := match i % 128 with
  | 0 => ⟨S1600000x1, .i32⟩
  | 1 => ⟨S100000x128, .f32⟩
  | 2 => ⟨S100000x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S100000x128, .f32⟩
  | 9 => ⟨S100000x128, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S100000x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S64x128, .f32⟩
  | 31 => ⟨S100000x1, .i32⟩
  | 32 => ⟨S64x128, .f32⟩
  | 33 => ⟨S_, .f32⟩
  | 34 => ⟨S100000, .f32⟩
  | 35 => ⟨S_, .f32⟩
  | 36 => ⟨S64, .f32⟩
  | 37 => ⟨S100000x1, .i32⟩
  | 38 => ⟨S64, .f32⟩
  | 39 => ⟨S_, .f32⟩
  | 40 => ⟨S_, .f32⟩
  | 41 => ⟨S64, .f32⟩
  | 42 => ⟨S64, .f32⟩
  | 43 => ⟨S64x1, .f32⟩
  | 44 => ⟨S64x128, .f32⟩
  | 45 => ⟨S64x128, .f32⟩
  | 46 => ⟨S128x1, .f32⟩
  | 47 => ⟨S64x1, .f32⟩
  | 48 => ⟨S1x1, .f32⟩
  | 49 => ⟨S64x1, .f32⟩
  | 50 => ⟨S64x1, .f32⟩
  | 51 => ⟨S64x1, .f32⟩
  | 52 => ⟨S64x1, .f32⟩
  | 53 => ⟨S_, .f32⟩
  | 54 => ⟨S64x1, .f32⟩
  | 55 => ⟨S64x1, .f32⟩
  | 56 => ⟨S_, .f32⟩
  | 57 => ⟨S64x1, .f32⟩
  | 58 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v9 : Ref sig .tc := ⟨.hbm, 32, rfl⟩
abbrev main_cst_3 : Ref sig .tc := ⟨.hbm, 33, rfl⟩
abbrev main_v10 : Ref sig .tc := ⟨.hbm, 34, rfl⟩
abbrev main_c_4 : Ref sig .tc := ⟨.hbm, 35, rfl⟩
abbrev main_v11 : Ref sig .tc := ⟨.hbm, 36, rfl⟩
abbrev main_v12 : Ref sig .tc := ⟨.hbm, 37, rfl⟩
abbrev main_c_5 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_7 : Ref sig .tc := ⟨.hbm, 54, rfl⟩
abbrev main_v25 : Ref sig .tc := ⟨.hbm, 55, rfl⟩
abbrev main_v26 : Ref sig .tc := ⟨.hbm, 56, rfl⟩
abbrev main_c_8 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_9 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_10 : Ref sig .tc := ⟨.hbm, 75, rfl⟩
abbrev main_v43 : Ref sig .tc := ⟨.hbm, 76, rfl⟩
abbrev main_v44 : Ref sig .tc := ⟨.hbm, 77, rfl⟩
abbrev main_c_11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_12 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_13 : Ref sig .tc := ⟨.hbm, 96, rfl⟩
abbrev main_v61 : Ref sig .tc := ⟨.hbm, 97, rfl⟩
abbrev main_v62 : Ref sig .tc := ⟨.hbm, 98, rfl⟩
abbrev main_c_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_16 : Ref sig .tc := ⟨.hbm, 117, rfl⟩
abbrev main_v79 : Ref sig .tc := ⟨.hbm, 118, rfl⟩
abbrev main_v80 : Ref sig .tc := ⟨.hbm, 119, rfl⟩
abbrev main_c_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_18 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_19 : Ref sig .tc := ⟨.hbm, 138, rfl⟩
abbrev main_v97 : Ref sig .tc := ⟨.hbm, 139, rfl⟩
abbrev main_v98 : Ref sig .tc := ⟨.hbm, 140, rfl⟩
abbrev main_c_20 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_21 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_22 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_23 : Ref sig .tc := ⟨.hbm, 161, rfl⟩
abbrev main_v116 : Ref sig .tc := ⟨.hbm, 162, rfl⟩
abbrev main_cst_24 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_25 : Ref sig .tc := ⟨.hbm, 167, rfl⟩
abbrev main_call2_v0 : Ref sig .tc := ⟨.hbm, 168, rfl⟩
abbrev main_call2_v1 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_26 : Ref sig .tc := ⟨.hbm, 181, rfl⟩
abbrev main_v131 : Ref sig .tc := ⟨.hbm, 182, rfl⟩
abbrev main_v132 : Ref sig .tc := ⟨.hbm, 183, rfl⟩
abbrev main_cst_27 : Ref sig .tc := ⟨.hbm, 184, rfl⟩
abbrev main_v133 : Ref sig .tc := ⟨.hbm, 185, rfl⟩
abbrev main_v134 : Ref sig .tc := ⟨.hbm, 186, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S1x128_S128x1_1_0 : S1x128.Transposes [1, 0] S128x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x1_S64x1_1_0_0_1_n_n_wf : DotDims.WF S64x128 S128x1 S64x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.Region0.lean ====
import proofs.«421459_j2104533975239_3_alg».proof.Proof.Gen.Kernel.Launch
import proofs.«421459_j2104533975239_3_alg».proof.Proof.Gen.Kernel.Skeleton
import proofs.«421459_j2104533975239_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] (V : (c : Dev nD) → (b : Ref sig .tc) → Buf (Elt F) ((c : Thread nD τ).loc b))

local notation "𝕄" => MT nD τ sig Unit (Elt F) ℕ (UR sig nD τ) ℕ

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4000x128 := Rect.unit (s := S4000x128) ![0, 0] S4000x128.size inb_S4000x128_S4000x128_0_0
abbrev r0_1 : Rect S4000x1 := Rect.unit (s := S4000x1) ![0, 0] S4000x1.size inb_S4000x1_S4000x1_0_0

def out0_2 (x0 : Vec F S4000x128 .f32) (x1 : Vec F S4000x1 .f32) : Vec F S4000x128 .bf16 :=
  View.canon [⟨r0_0, k0_pay1 (View.ld x0 r0_0) (View.ld x1 r0_1)⟩]

theorem cover0_2 (p0 : Vec F S4000x128 .bf16) (y : S4000x128.Idx) :
    ∃ pc ∈ ([⟨r0_0, p0⟩] : List (View.Piece (Elt F) S4000x128 .bf16)), y ∈ pc.1.set :=
  View.cover_of_tiled [⟨r0_0, p0⟩] S4000x128.size (by rfl) y

set_option maxHeartbeats 1000000 in
/-- The row rescale's body keeps its two inputs and leaves `out0_2` of them as its third. -/
theorem sound_scale (c : Dev nD) (i : grid0.Coords) (arg1 : Memref sig .tc .vmem S4000x128 .f32) (harg1 : arg1.IsWhole)
    (arg2 : Memref sig .tc .vmem S4000x1 .f32) (harg2 : arg2.IsWhole) (arg3 : Memref sig .tc .vmem S4000x128 .bf16) (harg3 : arg3.IsWhole)
    (x0 : Vec F S4000x128 .f32) (x1 : Vec F S4000x1 .f32) (g : Vec F S4000x128 .bf16 → Vec F S4000x128 .bf16) (Φ O : sProp 𝕄) :
    iprop(Φ ∗ O ∗ (∃ _ : Vec F S4000x128 .f32, owns c arg1 fullShare x0) ∗ (∃ _ : Vec F S4000x1 .f32, owns c arg2 fullShare x1)
        ∗ (∃ d, owns c arg3 fullShare (g d)))
      ⊢ wp frame (wpE (defs₀ (F := F)) Variants.none c none) Set.univ (cc0__scale_kernel i arg1 harg1 arg2 harg2 arg3 harg3) fun _ =>
        iprop(Φ ∗ O ∗ owns c arg1 fullShare x0 ∗ owns c arg2 fullShare x1 ∗ owns c arg3 fullShare (out0_2 x0 x1)) := by
  simp only [cc0__scale_kernel_eq_skeleton]; unfold cc0__scale_kernel_skel
  unfold owns
  iintro ⟨HΦ, HO, ⟨%_, %f0, %hf0, H0⟩, ⟨%_, %f1, %hf1, H1⟩, ⟨%d2, %f2, -, H2⟩⟩
  subst hf0 hf1
  sl_exec
  sl_step
  isplitl [HΦ]; · iexact HΦ
  isplitl [HO]; · iexact HO
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem before0 (c : Dev nD) (t : Fin cfg0.N) : (∀ d, (dat0 V c).before 0 t d = iblk0 V c 0 t) ∧ (∀ d, (dat0 V c).before 1 t d = iblk0 V c 1 t) := by
  refine ⟨?_, ?_⟩ <;> exact fun d => ((dat0 V c).before_in_eq_fetched _ rfl (fun _ => rfl) (fun _ _ _ => rfl) (fun _ => by dsimp only [dat0]; rfl) t d).trans
    (by unfold Dat.fetched Dat.blockOf; dsimp only [dat0]; rfl)

theorem body_obligation0 (c : Dev nD) : BodyObligation (dat0 (F := F) V c) (defs₀ (F := F)) Variants.none () Set.univ := fun t => by
  rw [bigSep_W0, bigSep_W0]
  obtain ⟨h0, h1⟩ := before0 V c t
  simp only [h0, h1]
  dsimp only [dat0]
  exact sound_scale c (grid0.coords t) _ (hstage0_0 _) _ (hstage0_1 _) _ (hstage0_2 _) (iblk0 V c 0 t) (iblk0 V c 1 t) _ _ _

end Cert.Kernel.Gen

end
-- ==== Proof.K.Region1.lean ====
import proofs.«421459_j2104533975239_3_alg».proof.Proof.Gen.Kernel.Launch
import proofs.«421459_j2104533975239_3_alg».proof.Proof.Gen.Kernel.Skeleton
import proofs.«421459_j2104533975239_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] (V : (c : Dev nD) → (b : Ref sig .tc) → Buf (Elt F) ((c : Thread nD τ).loc b))

local notation "𝕄" => MT nD τ sig Unit (Elt F) ℕ (UR sig nD τ) ℕ

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x128 := Rect.unit (s := S4000x128) ![0, 0] S4000x128.size inb_S4000x128_S4000x128_0_0
abbrev r1_1 : Rect S4000x2 := Rect.unit (s := S4000x2) ![0, 0] S4000x2.size inb_S4000x2_S4000x2_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0

def out1_4 (x0 : Vec F S4000x128 .f32) (x1 : Vec F S4000x2 .f32) (x2 : Vec F S128x128 .f32) (x3 : Vec F S1x128 .f32) : Vec F S4000x128 .bf16 :=
  View.canon [⟨r1_0, k1_pay1 (View.ld x0 r1_0) (View.ld x1 r1_1) (View.ld x2 r1_2) (View.ld x3 r1_3)⟩]

theorem cover1_4 (p0 : Vec F S4000x128 .bf16) (y : S4000x128.Idx) :
    ∃ pc ∈ ([⟨r1_0, p0⟩] : List (View.Piece (Elt F) S4000x128 .bf16)), y ∈ pc.1.set :=
  View.cover_of_tiled [⟨r1_0, p0⟩] S4000x128.size (by rfl) y

set_option maxHeartbeats 1000000 in
/-- The layer's body, under any name `kern` of its function: it keeps its four inputs and leaves `out` of them as its fifth. -/
theorem sound_conv {kern : _} (hk : kern = cc1__conv_scaled_kernel (F := F)) {out : _} (ho : out = out1_4 (F := F)) (c : Dev nD) (i : grid1.Coords)
    (arg1 : Memref sig .tc .vmem S4000x128 .f32) (harg1 : arg1.IsWhole) (arg2 : Memref sig .tc .vmem S4000x2 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S4000x128 .bf16) (harg5 : arg5.IsWhole)
    (x0 : Vec F S4000x128 .f32) (x1 : Vec F S4000x2 .f32) (x2 : Vec F S128x128 .f32) (x3 : Vec F S1x128 .f32)
    (g : Vec F S4000x128 .bf16 → Vec F S4000x128 .bf16) (Φ O : sProp 𝕄) :
    iprop(Φ ∗ O ∗ (∃ _ : Vec F S4000x128 .f32, owns c arg1 fullShare x0) ∗ (∃ _ : Vec F S4000x2 .f32, owns c arg2 fullShare x1)
        ∗ (∃ _ : Vec F S128x128 .f32, owns c arg3 fullShare x2) ∗ (∃ _ : Vec F S1x128 .f32, owns c arg4 fullShare x3)
        ∗ (∃ d, owns c arg5 fullShare (g d)))
      ⊢ wp frame (wpE (defs₀ (F := F)) Variants.none c none) Set.univ (kern i arg1 harg1 arg2 harg2 arg3 harg3 arg4 harg4 arg5 harg5) fun _ =>
        iprop(Φ ∗ O ∗ owns c arg1 fullShare x0 ∗ owns c arg2 fullShare x1 ∗ owns c arg3 fullShare x2
          ∗ owns c arg4 fullShare x3 ∗ owns c arg5 fullShare (out x0 x1 x2 x3)) := by
  subst hk ho
  simp only [cc1__conv_scaled_kernel_eq_skeleton]; unfold cc1__conv_scaled_kernel_skel
  unfold owns
  iintro ⟨HΦ, HO, ⟨%_, %f0, %hf0, H0⟩, ⟨%_, %f1, %hf1, H1⟩, ⟨%_, %f2, %hf2, H2⟩, ⟨%_, %f3, %hf3, H3⟩, ⟨%d4, %f4, -, H4⟩⟩
  subst hf0 hf1 hf2 hf3
  sl_exec
  sl_step
  isplitl [HΦ]; · iexact HΦ
  isplitl [HO]; · iexact HO
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = out1_4 (iblk1 V c 0 t) (iblk1 V c 1 t) (iblk1 V c 2 t) (iblk1 V c 3 t) := by dsimp only [dat1]

theorem before1 (c : Dev nD) (t : Fin cfg1.N) : (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t) := by
  refine ⟨?_, ?_, ?_, ?_⟩ <;> exact fun d => ((dat1 V c).before_in_eq_fetched _ rfl (fun _ => rfl) (fun _ _ _ => rfl) (fun _ => by dsimp only [dat1]; rfl) t d).trans
    (by unfold Dat.fetched Dat.blockOf; dsimp only [dat1]; rfl)

theorem body_obligation1 (c : Dev nD) : BodyObligation (dat1 (F := F) V c) (defs₀ (F := F)) Variants.none () Set.univ := fun t => by
  rw [bigSep_W1, bigSep_W1]
  obtain ⟨h0, h1, h2, h3⟩ := before1 V c t
  simp only [h0, h1, h2, h3]
  dsimp only [dat1]
  exact sound_conv (kern := cc1__conv_scaled_kernel) rfl (out := out1_4) rfl c (grid1.coords t) _ (hstage1_0 _) _ (hstage1_1 _) _ (hstage1_2 _) _ (hstage1_3 _) _ (hstage1_4 _)
    (iblk1 V c 0 t) (iblk1 V c 1 t) (iblk1 V c 2 t) (iblk1 V c 3 t) _ _ _

end Cert.Kernel.Gen

end
-- ==== Proof.K.Region2.lean ====
import proofs.«421459_j2104533975239_3_alg».proof.Proof.K.Region1

noncomputable section

namespace Cert.Kernel.Gen

open Idealize.ShloMosaic Idealize.ShloMosaic.TcCoe Idealize.SL.RA
open Idealize.ShloMosaic.Pipeline (Dat BodyObligation)

variable {F : FTy → Type} [FloatOps F] (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x128 := Rect.unit (s := S4000x128) ![0, 0] S4000x128.size inb_S4000x128_S4000x128_0_0
abbrev r2_1 : Rect S4000x2 := Rect.unit (s := S4000x2) ![0, 0] S4000x2.size inb_S4000x2_S4000x2_0_0
abbrev r2_2 : Rect S128x128 := Rect.unit (s := S128x128) ![0, 0] S128x128.size inb_S128x128_S128x128_0_0
abbrev r2_3 : Rect S1x128 := Rect.unit (s := S1x128) ![0, 0] S1x128.size inb_S1x128_S1x128_0_0

def out2_4 (x0 : Vec F S4000x128 .f32) (x1 : Vec F S4000x2 .f32) (x2 : Vec F S128x128 .f32) (x3 : Vec F S1x128 .f32) : Vec F S4000x128 .bf16 :=
  View.canon [⟨r2_0, k2_pay1 (View.ld x0 r2_0) (View.ld x1 r2_1) (View.ld x2 r2_2) (View.ld x3 r2_3)⟩]

theorem cover2_4 (p0 : Vec F S4000x128 .bf16) (y : S4000x128.Idx) :
    ∃ pc ∈ ([⟨r2_0, p0⟩] : List (View.Piece (Elt F) S4000x128 .bf16)), y ∈ pc.1.set :=
  cover1_4 p0 y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]

theorem before2 (c : Dev nD) (t : Fin cfg2.N) : (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t) := by
  refine ⟨?_, ?_, ?_, ?_⟩ <;> exact fun d => ((dat2 V c).before_in_eq_fetched _ rfl (fun _ => rfl) (fun _ _ _ => rfl) (fun _ => by dsimp only [dat2]; rfl) t d).trans
    (by unfold Dat.fetched Dat.blockOf; dsimp only [dat2]; rfl)

theorem body_obligation2 (c : Dev nD) : BodyObligation (dat2 (F := F) V c) (defs₀ (F := F)) Variants.none () Set.univ := fun t => by
  rw [bigSep_W2, bigSep_W2]
  obtain ⟨h0, h1, h2, h3⟩ := before2 V c t
  simp only [h0, h1, h2, h3]
  dsimp only [dat2]
  exact sound_conv (kern := cc2__conv_scaled_kernel) rfl (out := out2_4) rfl c (grid2.coords t) _ (hstage2_0 _) _ (hstage2_1 _) _ (hstage2_2 _) _ (hstage2_3 _) _ (hstage2_4 _)
    (iblk2 V c 0 t) (iblk2 V c 1 t) (iblk2 V c 2 t) (iblk2 V c 3 t) _ _ _

end Cert.Kernel.Gen

end
-- ==== Proof.K.Region3.lean ====
import proofs.«421459_j2104533975239_3_alg».proof.Proof.K.Region1

noncomputable section

namespace Cert.Kernel.Gen

open Idealize.ShloMosaic Idealize.ShloMosaic.TcCoe Idealize.SL.RA
open Idealize.ShloMosaic.Pipeline (Dat BodyObligation)

variable {F : FTy → Type} [FloatOps F] (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S4000x128 := Rect.unit (s := S4000x128) ![0, 0] S4000x128.size inb_S4000x128_S4000x128_0_0
abbrev r3_1 : Rect S4000x2 := Rect.unit (s := S4000x2) ![0, 0] S4000x2.size inb_S4000x2_S4000x2_0_0
abbrev r3_2 : Rect S128x128 := Rect.unit (s := S128x128) ![0, 0] S128x128.size inb_S128x128_S128x128_0_0
abbrev r3_3 : Rect S1x128 := Rect.unit (s := S1x128) ![0, 0] S1x128.size inb_S1x128_S1x128_0_0

def out3_4 (x0 : Vec F S4000x128 .f32) (x1 : Vec F S4000x2 .f32) (x2 : Vec F S128x128 .f32) (x3 : Vec F S1x128 .f32) : Vec F S4000x128 .bf16 :=
  View.canon [⟨r3_0, k3_pay1 (View.ld x0 r3_0) (View.ld x1 r3_1) (View.ld x2 r3_2) (View.ld x3 r3_3)⟩]

theorem cover3_4 (p0 : Vec F S4000x128 .bf16) (y : S4000x128.Idx) :
    ∃ pc ∈ ([⟨r3_0, p0⟩] : List (View.Piece (Elt F) S4000x128 .bf16)), y ∈ pc.1.set :=
  cover1_4 p0 y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) : (dat3 V c).after 4 t = out3_4 (iblk3 V c 0 t) (iblk3 V c 1 t) (iblk3 V c 2 t) (iblk3 V c 3 t) := by dsimp only [dat3]

theorem before3 (c : Dev nD) (t : Fin cfg3.N) : (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t) := by
  refine ⟨?_, ?_, ?_, ?_⟩ <;> exact fun d => ((dat3 V c).before_in_eq_fetched _ rfl (fun _ => rfl) (fun _ _ _ => rfl) (fun _ => by dsimp only [dat3]; rfl) t d).trans
    (by unfold Dat.fetched Dat.blockOf; dsimp only [dat3]; rfl)

theorem body_obligation3 (c : Dev nD) : BodyObligation (dat3 (F := F) V c) (defs₀ (F := F)) Variants.none () Set.univ := fun t => by
  rw [bigSep_W3, bigSep_W3]
  obtain ⟨h0, h1, h2, h3⟩ := before3 V c t
  simp only [h0, h1, h2, h3]
  dsimp only [dat3]
  exact sound_conv (kern := cc3__conv_scaled_kernel) rfl (out := out3_4) rfl c (grid3.coords t) _ (hstage3_0 _) _ (hstage3_1 _) _ (hstage3_2 _) _ (hstage3_3 _) _ (hstage3_4 _)
    (iblk3 V c 0 t) (iblk3 V c 1 t) (iblk3 V c 2 t) (iblk3 V c 3 t) _ _ _

end Cert.Kernel.Gen

end
-- ==== Proof.K.Region4.lean ====
import proofs.«421459_j2104533975239_3_alg».proof.Proof.K.Region1

noncomputable section

namespace Cert.Kernel.Gen

open Idealize.ShloMosaic Idealize.ShloMosaic.TcCoe Idealize.SL.RA
open Idealize.ShloMosaic.Pipeline (Dat BodyObligation)

variable {F : FTy → Type} [FloatOps F] (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S4000x128 := Rect.unit (s := S4000x128) ![0, 0] S4000x128.size inb_S4000x128_S4000x128_0_0
abbrev r4_1 : Rect S4000x2 := Rect.unit (s := S4000x2) ![0, 0] S4000x2.size inb_S4000x2_S4000x2_0_0
abbrev r4_2 : Rect S128x128 := Rect.unit (s := S128x128) ![0, 0] S128x128.size inb_S128x128_S128x128_0_0
abbrev r4_3 : Rect S1x128 := Rect.unit (s := S1x128) ![0, 0] S1x128.size inb_S1x128_S1x128_0_0

def out4_4 (x0 : Vec F S4000x128 .f32) (x1 : Vec F S4000x2 .f32) (x2 : Vec F S128x128 .f32) (x3 : Vec F S1x128 .f32) : Vec F S4000x128 .bf16 :=
  View.canon [⟨r4_0, k4_pay1 (View.ld x0 r4_0) (View.ld x1 r4_1) (View.ld x2 r4_2) (View.ld x3 r4_3)⟩]

theorem cover4_4 (p0 : Vec F S4000x128 .bf16) (y : S4000x128.Idx) :
    ∃ pc ∈ ([⟨r4_0, p0⟩] : List (View.Piece (Elt F) S4000x128 .bf16)), y ∈ pc.1.set :=
  cover1_4 p0 y

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) : (dat4 V c).after 4 t = out4_4 (iblk4 V c 0 t) (iblk4 V c 1 t) (iblk4 V c 2 t) (iblk4 V c 3 t) := by dsimp only [dat4]

theorem before4 (c : Dev nD) (t : Fin cfg4.N) : (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t) := by
  refine ⟨?_, ?_, ?_, ?_⟩ <;> exact fun d => ((dat4 V c).before_in_eq_fetched _ rfl (fun _ => rfl) (fun _ _ _ => rfl) (fun _ => by dsimp only [dat4]; rfl) t d).trans
    (by unfold Dat.fetched Dat.blockOf; dsimp only [dat4]; rfl)

theorem body_obligation4 (c : Dev nD) : BodyObligation (dat4 (F := F) V c) (defs₀ (F := F)) Variants.none () Set.univ := fun t => by
  rw [bigSep_W4, bigSep_W4]
  obtain ⟨h0, h1, h2, h3⟩ := before4 V c t
  simp only [h0, h1, h2, h3]
  dsimp only [dat4]
  exact sound_conv (kern := cc4__conv_scaled_kernel) rfl (out := out4_4) rfl c (grid4.coords t) _ (hstage4_0 _) _ (hstage4_1 _) _ (hstage4_2 _) _ (hstage4_3 _) _ (hstage4_4 _)
    (iblk4 V c 0 t) (iblk4 V c 1 t) (iblk4 V c 2 t) (iblk4 V c 3 t) _ _ _

end Cert.Kernel.Gen

end
-- ==== Proof.K.Region5.lean ====
import proofs.«421459_j2104533975239_3_alg».proof.Proof.Gen.Kernel.Launch
import proofs.«421459_j2104533975239_3_alg».proof.Proof.Gen.Kernel.Skeleton
import proofs.«421459_j2104533975239_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem owns_unread5 (c : Dev nD) {sp : Space} {sh : Shape} {e : EltTy} {m : Memref sig .tc sp sh e} (h : m.IsWhole) (X : Vec F sh e) :
    (owns (c : Thread nD τ) m fullShare X : sProp 𝕄) = (m.view.loc (c : Thread nD τ) ↦[m.view.set]{fullShare} h.unread X) := by
  have h₁ : owns (c : Thread nD τ) m fullShare X ⊢ (m.view.loc (c : Thread nD τ) ↦[m.view.set]{fullShare} h.unread X : sProp 𝕄) := by
    unfold owns; iintro ⟨%f, %hf, H⟩; obtain rfl := h.eq_unread hf; iexact H
  have h₂ : (m.view.loc (c : Thread nD τ) ↦[m.view.set]{fullShare} h.unread X : sProp 𝕄) ⊢ owns (c : Thread nD τ) m fullShare X := by
    unfold owns; iintro H; iexists _; isplitr; swap; · iexact H
    ipureintro; exact h.read_unread X
  exact equiv_iff.mp ⟨h₁, h₂⟩

theorem owns_cover5 (c : Dev nD) {sp sp' : Space} {sh : Shape} {e : EltTy} (m : Memref sig .tc sp sh e) (W : View sig .tc sp' sh e) (L : List (View.Piece (Elt F) sh e))
    (hL : ∀ y, ∃ pc ∈ L, y ∈ pc.1.set) (f : m.view.ty.Contents (Elt F)) :
    (m.view.loc (c : Thread nD τ) ↦[m.view.set]{fullShare} m.view.writes (Elt F) f L : sProp 𝕄)
      ⊢ owns (c : Thread nD τ) m fullShare (W.read (Elt F) (W.writes (Elt F) W.junk L)) := by
  unfold owns; iintro H; iexists _; isplitr; swap; · iexact H
  ipureintro; exact View.read_writes_of_cover _ _ _ _ _ hL

section Regions
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

end Regions

abbrev cond5_0 (i : grid5.Coords) : Prop := (Scalar.cmpi .ne (Scalar.extui (Scalar.cmpi .eq (BitVec.ofNat 32 (i 0).val) 0#32)) 0#32) = 1#1
abbrev cond5_1 (i : grid5.Coords) : Prop := k5_cond2 i = 1#1

theorem hcond5_0 : ∀ t : Fin cfg5.N, cond5_0 (grid5.coords t) ↔ t.val % 25 = 0 :=
  (by decide +kernel : ∀ t : Fin grid5.N, cond5_0 (grid5.coords t) ↔ t.val % 25 = 0)
theorem hcond5_1 : ∀ t : Fin cfg5.N, cond5_1 (grid5.coords t) ↔ t.val % 25 = 24 :=
  (by decide +kernel : ∀ t : Fin grid5.N, cond5_1 (grid5.coords t) ↔ t.val % 25 = 24)

theorem idleAt5_8 : ∀ t : Fin cfg5.N, ¬t.val % 25 = 24 → cfg5.idle 8 (grid5.coords t) = true ∧ (cfg5.win 8).flush t = false := by decide +kernel
theorem liveAt5_8 : ∀ t : Fin cfg5.N, t.val % 25 = 24 → cfg5.idle 8 (grid5.coords t) = false := by decide +kernel

abbrev VO5_8 : View sig .tc .vmem S64x1 .f32 := (Memref.whole cc5_stg8_0 : Memref sig .tc .vmem S64x1 .f32).view
abbrev ms5_0 (t : Fin cfg5.N) : Memref sig .tc .vmem S4000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4000x2 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S4000x1 .i32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S64x1 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S1x1 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S64x1 .f32 := win5_8.stage (cfg5.slots t 8)
abbrev hs5_8 (t : Fin cfg5.N) : (ms5_8 t).IsWhole := hstage5_8 ((cfg5.slots t 8).cast nbuf5_8)
abbrev scM5_0 : Memref sig .tc .vmem S128x128 .f32 := Memref.whole cc5_scratch0
abbrev VS5_0 : View sig .tc .vmem S128x128 .f32 := scM5_0.view

abbrev rest5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop(iprop((∃ d, owns (c : Thread nD τ) scM5_0 fullShare d)) ∗ rest5 (F := F) c) ∗ (∃ r, prngReg c r)) := by
  unfold Pipeline.ΦA; rw [scopedRest5_split]; simp only [scM5_0, owns_whole]; try rfl

section Body
variable (c : Dev nD) (i : grid5.Coords) (arg1 : Memref sig .tc .vmem S4000x128 .f32) (harg1 : arg1.IsWhole) (arg2 : Memref sig .tc .vmem S4000x2 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4000x1 .i32) (harg5 : arg5.IsWhole) (arg6 : Memref sig .tc .vmem S64x1 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S64x1 .f32) (harg9 : arg9.IsWhole) (arg10 : Memref sig .tc .vmem S128x128 .f32) (harg10 : arg10.IsWhole)

section A
variable (hc0 : cond5_0 i) (hc1 : ¬cond5_1 i)
    (x0 : Vec F S4000x128 .f32) (x1 : Vec F S4000x2 .f32) (x2 : Vec F S128x128 .f32) (x3 : Vec F S1x128 .f32) (x4 : Vec F S4000x1 .i32) (x5 : Vec F S64x1 .f32) (x6 : Vec F S1x128 .f32) (x7 : Vec F S1x1 .f32)

set_option maxHeartbeats 1000000 in
-- case A, t % 25 = 0: the sum restarts from zero, whatever was there
noncomputable def kernelRun5_A :
    Σ' (L8 : List (View.Piece (Elt F) S64x1 .f32)), { LS0 : List (View.Piece (Elt F) S128x128 .f32) //
      ∀ (xi8 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc5__conv_pool_kernel i arg1 harg1 arg2 harg2 arg3 harg3 arg4 harg4 arg5 harg5 arg6 harg6 arg7 harg7 arg8 harg8 arg9 harg9 arg10 harg10) K } := by
  refine ⟨[], ?_, fun xi8 E K => ?run⟩
  case run =>
    simp only [owns_unread5 c harg1, owns_unread5 c harg2, owns_unread5 c harg3, owns_unread5 c harg4, owns_unread5 c harg5, owns_unread5 c harg6, owns_unread5 c harg7, owns_unread5 c harg8, owns_unread5 c harg9, cc5__conv_pool_kernel_eq_skeleton]
    unfold cc5__conv_pool_kernel_skel owns
    iintro ⟨H0, H1, H2, H3, H4, H5, H6, H7, H8, ⟨%ds0, %fs0, -, HS0⟩, Hk⟩
    sl_exec (disch := first | exact hc0 | exact hc1)
    sl_step
    iapply Hk
    iframe H0 H1 H2 H3 H4 H5 H6 H7 H8
    iexists _; iexact HS0

def out5_A_8 : Vec F S64x1 .f32 :=
  VO5_8.read (Elt F) (VO5_8.writes (Elt F) VO5_8.junk (kernelRun5_A c i arg1 harg1 arg2 harg2 arg3 harg3 arg4 harg4 arg5 harg5 arg6 harg6 arg7 harg7 arg8 harg8 arg9 harg9 arg10 harg10 hc0 hc1 x0 x1 x2 x3 x4 x5 x6 x7).1)

theorem scover5_A_0 (y : S128x128.Idx) :
    ∃ pc ∈ (kernelRun5_A c i arg1 harg1 arg2 harg2 arg3 harg3 arg4 harg4 arg5 harg5 arg6 harg6 arg7 harg7 arg8 harg8 arg9 harg9 arg10 harg10 hc0 hc1 x0 x1 x2 x3 x4 x5 x6 x7).2.1, y ∈ pc.1.set :=
  View.cover_of_tiledL _ S128x128.size (by sl_kernel_rfl) y

def sout5_A_0 : Vec F S128x128 .f32 :=
  VS5_0.read (Elt F) (VS5_0.writes (Elt F) VS5_0.junk (kernelRun5_A c i arg1 harg1 arg2 harg2 arg3 harg3 arg4 harg4 arg5 harg5 arg6 harg6 arg7 harg7 arg8 harg8 arg9 harg9 arg10 harg10 hc0 hc1 x0 x1 x2 x3 x4 x5 x6 x7).2.1)

end A

section B
variable (hc0 : ¬cond5_0 i) (hc1 : ¬cond5_1 i)
    (x0 : Vec F S4000x128 .f32) (x1 : Vec F S4000x2 .f32) (x2 : Vec F S128x128 .f32) (x3 : Vec F S1x128 .f32) (x4 : Vec F S4000x1 .i32) (x5 : Vec F S64x1 .f32) (x6 : Vec F S1x128 .f32) (x7 : Vec F S1x1 .f32) (xs0 : Vec F S128x128 .f32)

set_option maxHeartbeats 1000000 in
-- case B, 0 < t % 25 < 24: one more term is added to the sum xs0 so far
noncomputable def kernelRun5_B :
    Σ' (L8 : List (View.Piece (Elt F) S64x1 .f32)), { LS0 : List (View.Piece (Elt F) S128x128 .f32) //
      ∀ (xi8 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc5__conv_pool_kernel i arg1 harg1 arg2 harg2 arg3 harg3 arg4 harg4 arg5 harg5 arg6 harg6 arg7 harg7 arg8 harg8 arg9 harg9 arg10 harg10) K } := by
  refine ⟨[], ?_, fun xi8 E K => ?run⟩
  case run =>
    simp only [owns_unread5 c harg1, owns_unread5 c harg2, owns_unread5 c harg3, owns_unread5 c harg4, owns_unread5 c harg5, owns_unread5 c harg6, owns_unread5 c harg7, owns_unread5 c harg8, owns_unread5 c harg9, owns_unread5 c harg10, cc5__conv_pool_kernel_eq_skeleton]
    unfold cc5__conv_pool_kernel_skel
    iintro ⟨H0, H1, H2, H3, H4, H5, H6, H7, H8, HS0, Hk⟩
    sl_exec (disch := first | exact hc0 | exact hc1)
    sl_step
    iapply Hk
    iframe H0 H1 H2 H3 H4 H5 H6 H7 H8
    iexists _; iexact HS0

def out5_B_8 : Vec F S64x1 .f32 :=
  VO5_8.read (Elt F) (VO5_8.writes (Elt F) VO5_8.junk (kernelRun5_B c i arg1 harg1 arg2 harg2 arg3 harg3 arg4 harg4 arg5 harg5 arg6 harg6 arg7 harg7 arg8 harg8 arg9 harg9 arg10 harg10 hc0 hc1 x0 x1 x2 x3 x4 x5 x6 x7 xs0).1)

theorem scover5_B_0 (y : S128x128.Idx) :
    ∃ pc ∈ (kernelRun5_B c i arg1 harg1 arg2 harg2 arg3 harg3 arg4 harg4 arg5 harg5 arg6 harg6 arg7 harg7 arg8 harg8 arg9 harg9 arg10 harg10 hc0 hc1 x0 x1 x2 x3 x4 x5 x6 x7 xs0).2.1, y ∈ pc.1.set :=
  View.cover_of_tiledL _ S128x128.size (by sl_kernel_rfl) y

def sout5_B_0 : Vec F S128x128 .f32 :=
  VS5_0.read (Elt F) (VS5_0.writes (Elt F) VS5_0.junk (kernelRun5_B c i arg1 harg1 arg2 harg2 arg3 harg3 arg4 harg4 arg5 harg5 arg6 harg6 arg7 harg7 arg8 harg8 arg9 harg9 arg10 harg10 hc0 hc1 x0 x1 x2 x3 x4 x5 x6 x7 xs0).2.1)

end B

section C
variable (hc0 : ¬cond5_0 i) (hc1 : cond5_1 i)
    (x0 : Vec F S4000x128 .f32) (x1 : Vec F S4000x2 .f32) (x2 : Vec F S128x128 .f32) (x3 : Vec F S1x128 .f32) (x4 : Vec F S4000x1 .i32) (x5 : Vec F S64x1 .f32) (x6 : Vec F S1x128 .f32) (x7 : Vec F S1x1 .f32) (xs0 : Vec F S128x128 .f32)

set_option maxHeartbeats 1000000 in
-- case C, t % 25 = 24: the last term is added and the result is formed from the sum
noncomputable def kernelRun5_C :
    Σ' (L8 : List (View.Piece (Elt F) S64x1 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc5__conv_pool_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [owns_unread5 c harg1, owns_unread5 c harg2, owns_unread5 c harg3, owns_unread5 c harg4, owns_unread5 c harg5, owns_unread5 c harg6, owns_unread5 c harg7, owns_unread5 c harg8, owns_unread5 c harg10, cc5__conv_pool_kernel_eq_skeleton]
    unfold cc5__conv_pool_kernel_skel owns
    iintro ⟨H0, H1, H2, H3, H4, H5, H6, H7, ⟨%d8, %f8, -, H8⟩, HS0, Hk⟩
    sl_exec (disch := first | exact hc0 | exact hc1)
    sl_step
    iapply Hk
    iframe H0 H1 H2 H3 H4 H5 H6 H7
    isplitl [H8]; · iexists _; iexact H8
    iexists _; iexact HS0

theorem cover5_C_8 (y : S64x1.Idx) :
    ∃ pc ∈ (kernelRun5_C c i arg1 harg1 arg2 harg2 arg3 harg3 arg4 harg4 arg5 harg5 arg6 harg6 arg7 harg7 arg8 harg8 arg9 harg9 arg10 harg10 hc0 hc1 x0 x1 x2 x3 x4 x5 x6 x7 xs0).1, y ∈ pc.1.set :=
  View.cover_of_tiledL _ S64x1.size (by sl_kernel_rfl) y

def out5_C_8 : Vec F S64x1 .f32 :=
  VO5_8.read (Elt F) (VO5_8.writes (Elt F) VO5_8.junk (kernelRun5_C c i arg1 harg1 arg2 harg2 arg3 harg3 arg4 harg4 arg5 harg5 arg6 harg6 arg7 harg7 arg8 harg8 arg9 harg9 arg10 harg10 hc0 hc1 x0 x1 x2 x3 x4 x5 x6 x7 xs0).1)

theorem scover5_C_0 (y : S128x128.Idx) :
    ∃ pc ∈ (kernelRun5_C c i arg1 harg1 arg2 harg2 arg3 harg3 arg4 harg4 arg5 harg5 arg6 harg6 arg7 harg7 arg8 harg8 arg9 harg9 arg10 harg10 hc0 hc1 x0 x1 x2 x3 x4 x5 x6 x7 xs0).2.1, y ∈ pc.1.set :=
  View.cover_of_tiledL _ S128x128.size (by sl_kernel_rfl) y

def sout5_C_0 : Vec F S128x128 .f32 :=
  VS5_0.read (Elt F) (VS5_0.writes (Elt F) VS5_0.junk (kernelRun5_C c i arg1 harg1 arg2 harg2 arg3 harg3 arg4 harg4 arg5 harg5 arg6 harg6 arg7 harg7 arg8 harg8 arg9 harg9 arg10 harg10 hc0 hc1 x0 x1 x2 x3 x4 x5 x6 x7 xs0).2.1)

end C

end Body

section Regions
variable (V : (c : Dev nD) → (b : Ref sig .tc) → Buf (Elt F) ((c : Thread nD τ).loc b))

-- one step of the accumulation at point t over the sum p so far, by cases on t % 25
def step5 (c : Dev nD) (t : Fin cfg5.N) (p : Vec F S128x128 .f32) : Vec F S64x1 .f32 × Vec F S128x128 .f32 :=
  if h0 : t.val % 25 = 0 then
    have h1 : ¬t.val % 25 = 24 := by omega
    (out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t))
  else if h1 : t.val % 25 = 24 then
    (out5_C_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) p, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) p)
  else
    (out5_B_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) p, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) p)

def outsAt5 (c : Dev nD) : (n : ℕ) → n < cfg5.N → Vec F S64x1 .f32 × Vec F S128x128 .f32
  | 0, hn => step5 V c ⟨0, hn⟩ (VS5_0.read (Elt F) VS5_0.junk)
  | n + 1, hn => step5 V c ⟨n + 1, hn⟩ (outsAt5 c n (Nat.lt_of_succ_lt hn)).2

theorem outsAt5_A (c : Dev nD) (t : Fin cfg5.N) (h0 : t.val % 25 = 0) (h1 : ¬t.val % 25 = 24) :
    outsAt5 V c t.val t.isLt = (out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t)) := by
  obtain ⟨_ | n, hn⟩ := t
  · rfl
  · exact dif_pos h0

theorem outsAt5_B (c : Dev nD) (t : Fin cfg5.N) (h0 : ¬t.val % 25 = 0) (h1 : ¬t.val % 25 = 24) :
    outsAt5 V c t.val t.isLt = (out5_B_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)).2) := by
  obtain ⟨_ | n, hn⟩ := t
  · exact absurd (Nat.zero_mod 25) h0
  · exact (dif_neg h0).trans (dif_neg h1)

theorem outsAt5_C (c : Dev nD) (t : Fin cfg5.N) (h0 : ¬t.val % 25 = 0) (h1 : t.val % 25 = 24) :
    outsAt5 V c t.val t.isLt = (out5_C_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)).2) := by
  obtain ⟨_ | n, hn⟩ := t
  · exact absurd (Nat.zero_mod 25) h0
  · exact (dif_neg h0).trans (dif_pos h1)

-- the invariant before position n: the sum so far (anything before the first point)
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ rest5 (F := F) c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_8 (c : Dev nD) (t : Fin cfg5.N) : (dat5 V c).after 8 t = (outsAt5 V c t.val t.isLt).1 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl
theorem before5_5 (c : Dev nD) (t : Fin cfg5.N) (d) : (dat5 V c).before 5 t d = iblk5 V c 5 t :=
  ((dat5 V c).before_in_eq_fetched 5 rfl (fun _ => rfl) (fun _ _ _ => rfl) (fun _ => rfl) t d).trans rfl
theorem before5_6 (c : Dev nD) (t : Fin cfg5.N) (d) : (dat5 V c).before 6 t d = iblk5 V c 6 t :=
  ((dat5 V c).before_in_eq_fetched 6 rfl (fun _ => rfl) (fun _ _ _ => rfl) (fun _ => rfl) t d).trans rfl
theorem before5_7 (c : Dev nD) (t : Fin cfg5.N) (d) : (dat5 V c).before 7 t d = iblk5 V c 7 t :=
  ((dat5 V c).before_in_eq_fetched 7 rfl (fun _ => rfl) (fun _ _ _ => rfl) (fun _ => rfl) t d).trans rfl

set_option maxHeartbeats 4800000 in
-- t % 25 selects the case; its run takes the sum the point before left and gives back this point's
theorem sound_body5 (c : Dev nD) (t : Fin cfg5.N) :
    iprop(PhiS5 V c t.val (Nat.le_of_lt t.isLt) ∗ (dat5 V c).owesAt () t.castSucc
      ∗ (∃ d, owns (c : Thread nD τ) (ms5_0 t) fullShare ((dat5 V c).before 0 t d))
      ∗ (∃ d, owns (c : Thread nD τ) (ms5_1 t) fullShare ((dat5 V c).before 1 t d))
      ∗ (∃ d, owns (c : Thread nD τ) (ms5_2 t) fullShare ((dat5 V c).before 2 t d))
      ∗ (∃ d, owns (c : Thread nD τ) (ms5_3 t) fullShare ((dat5 V c).before 3 t d))
      ∗ (∃ d, owns (c : Thread nD τ) (ms5_4 t) fullShare ((dat5 V c).before 4 t d))
      ∗ (∃ d, owns (c : Thread nD τ) (ms5_5 t) fullShare ((dat5 V c).before 5 t d))
      ∗ (∃ d, owns (c : Thread nD τ) (ms5_6 t) fullShare ((dat5 V c).before 6 t d))
      ∗ (∃ d, owns (c : Thread nD τ) (ms5_7 t) fullShare ((dat5 V c).before 7 t d))
      ∗ (∃ d, owns (c : Thread nD τ) (ms5_8 t) fullShare ((dat5 V c).before 8 t d)))
    ⊢ wp frame (wpE (defs₀ (F := F)) Variants.none c none) Set.univ (bodyAt5 t) (fun _ =>
      iprop(iprop(iprop(owns (c : Thread nD τ) scM5_0 fullShare ((outsAt5 V c t.val t.isLt).2) ∗ rest5 (F := F) c) ∗ (∃ r, prngReg c r))
        ∗ (dat5 V c).owesAt () t.castSucc
        ∗ owns (c : Thread nD τ) (ms5_0 t) fullShare (iblk5 V c 0 t) ∗ owns (c : Thread nD τ) (ms5_1 t) fullShare (iblk5 V c 1 t)
        ∗ owns (c : Thread nD τ) (ms5_2 t) fullShare (iblk5 V c 2 t) ∗ owns (c : Thread nD τ) (ms5_3 t) fullShare (iblk5 V c 3 t)
        ∗ owns (c : Thread nD τ) (ms5_4 t) fullShare (iblk5 V c 4 t) ∗ owns (c : Thread nD τ) (ms5_5 t) fullShare (iblk5 V c 5 t)
        ∗ owns (c : Thread nD τ) (ms5_6 t) fullShare (iblk5 V c 6 t) ∗ owns (c : Thread nD τ) (ms5_7 t) fullShare (iblk5 V c 7 t)
        ∗ (dat5 V c).leavesExact 8 t)) := by
  unfold bodyAt5
  simp only [before5_0, before5_1, before5_2, before5_3, before5_4, before5_5, before5_6, before5_7]
  have hN : t.val < 25 := lt_of_lt_of_eq t.isLt (show cfg5.N = 25 from N_5)
  by_cases h1 : t.val % 25 = 24
  · have h0 : ¬t.val % 25 = 0 := by omega
    have hz : t.val ≠ 0 := by omega
    rw [show (dat5 V c).leavesExact 8 t = owns (c : Thread nD τ) (ms5_8 t) fullShare ((dat5 V c).after 8 t) from by
      unfold Dat.leavesExact; rw [liveAt5_8 t h1], after5_8, outsAt5_C V c t h0 h1, PhiS5_pos V c _ _ hz]
    unfold out5_C_8 sout5_C_0; dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun5_C c (grid5.coords t) _ _ _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) _).2.2 Set.univ _)
    iframe H0 H1 H2 H3 H4 H5 H6 H7 HS0
    isplitl [H8]; · iexists _; iexact H8
    iintro ⟨H0, H1, H2, H3, H4, H5, H6, H7, ⟨%e8, H8⟩, ⟨%es0, HS0⟩⟩
    iframe HR Hg Ho H0 H1 H2 H3 H4 H5 H6 H7
    isplitl [HS0]
    · iapply (owns_cover5 c _ _ _ (scover5_C_0 c _ _ _ _ _ _ _ _ _ _ _ _ _ _ _ _ _ _ _ _ _ _ _ _ _ _ _ _ _ _ _ _) _) $$ HS0
    · iapply (owns_cover5 c _ _ _ (cover5_C_8 c _ _ _ _ _ _ _ _ _ _ _ _ _ _ _ _ _ _ _ _ _ _ _ _ _ _ _ _ _ _ _ _) _) $$ H8
  · rw [Dat.leavesExact_idle (dat5 V c) 8 t (idleAt5_8 t h1).1 (idleAt5_8 t h1).2]
    by_cases h0 : t.val % 25 = 0
    · have hz : t.val = 0 := by omega
      rw [outsAt5_A V c t h0 h1, PhiS5_zero V c _ _ hz, PhiA5_eq]
      unfold sout5_A_0; dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_A c (grid5.coords t) _ _ _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t)).2.2 _ Set.univ _)
      iframe H0 H1 H2 H3 H4 H5 H6 H7 H8 HS0
      iintro ⟨H0, H1, H2, H3, H4, H5, H6, H7, H8, ⟨%es0, HS0⟩⟩
      iframe HR Hg Ho H0 H1 H2 H3 H4 H5 H6 H7
      isplitl [HS0]
      · iapply (owns_cover5 c _ _ _ (scover5_A_0 c _ _ _ _ _ _ _ _ _ _ _ _ _ _ _ _ _ _ _ _ _ _ _ _ _ _ _ _ _ _ _) _) $$ HS0
      · iexists _; iexact H8
    · have hz : t.val ≠ 0 := by omega
      rw [outsAt5_B V c t h0 h1, PhiS5_pos V c _ _ hz]
      unfold sout5_B_0; dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_B c (grid5.coords t) _ _ _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) _).2.2 _ Set.univ _)
      iframe H0 H1 H2 H3 H4 H5 H6 H7 H8 HS0
      iintro ⟨H0, H1, H2, H3, H4, H5, H6, H7, H8, ⟨%es0, HS0⟩⟩
      iframe HR Hg Ho H0 H1 H2 H3 H4 H5 H6 H7
      isplitl [HS0]
      · iapply (owns_cover5 c _ _ _ (scover5_B_0 c _ _ _ _ _ _ _ _ _ _ _ _ _ _ _ _ _ _ _ _ _ _ _ _ _ _ _ _ _ _ _ _) _) $$ HS0
      · iexists _; iexact H8

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

-- after any point but the first the sum's value can be forgotten
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  iframe HR Hg
  iexists _; iexact HS0

theorem hout5 (c : Dev nD) : (dat5 V c).Φ (Fin.last cfg5.N) ⊢ Pipeline.ΦA spec5 c :=
  Phi_out5 V c _ (by rw [Fin.val_last]; have : cfg5.N = 25 := N_5; omega)

end Regions

end Cert.Kernel.Gen

end
-- ==== Proof.K.RunCond.lean ====
import proofs.«421459_j2104533975239_3_alg».proof.Proof.Gen.Kernel.Regions

set_option maxRecDepth 1288

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

theorem V16_main_v96 (c : Dev nD) : V16 m outs c main_v96 = outs 16 main_v96 c := by
  simp only [V16, Function.update_self]

/-- Memory `s` holds every argument array of core `c` as launched. -/
abbrev argsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)
  ∧ s.mem ((c.tc : Thread nD τ).loc main_arg14) = m ((c.tc : Thread nD τ).loc main_arg14)
  ∧ s.mem ((c.tc : Thread nD τ).loc main_arg15) = m ((c.tc : Thread nD τ).loc main_arg15)

set_option backward.isDefEq.respectTransparency.types false in
/-- From one segment per region that chain with the host stretches between them: the run ends, the result as the last region leaves it, the arguments kept. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (R0 : RegionSeg (pcfgs (F := F)) adm pdats ι defs₀ 𝒱₀ L lv 0) (R1 : RegionSeg (pcfgs (F := F)) adm pdats ι defs₀ 𝒱₀ L lv 1)
    (R2 : RegionSeg (pcfgs (F := F)) adm pdats ι defs₀ 𝒱₀ L lv 2) (R3 : RegionSeg (pcfgs (F := F)) adm pdats ι defs₀ 𝒱₀ L lv 3)
    (R4 : RegionSeg (pcfgs (F := F)) adm pdats ι defs₀ 𝒱₀ L lv 4) (R5 : RegionSeg (pcfgs (F := F)) adm pdats ι defs₀ 𝒱₀ L lv 5)
    (hch : ∀ c : Dev nD, Seg.ChainsAt c (fun c => iprop(StableHlo.held (c : Thread nD τ) (Pipeline.ucRefs τ sig) (V0 m c) ∗ E 0 c))
      (segs m outs 𝒱₀ L lv E ι pdats R0 R1 R2 R3 R4 R5 c)
      fun c => iprop(StableHlo.held (c : Thread nD τ) (Pipeline.ucRefs τ sig) (V16 m outs c) ∗ ∃ W, owes (c : Thread nD τ) (0 : CellTallies nD τ sig Ix) W)) :
    θ_run defs (onTc (τ := τ) (main (F := F))) ⟨m, fun _ => 0, ρ⟩ (fun r => ∀ c : Dev nD,
      r.2.mem ((c.tc : Thread nD τ).loc main_v96) = outs 16 main_v96 c ∧ argsKept m r.2 c) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0, StableHlo.seq hostOps0_1, StableHlo.seq hostOps0_2, StableHlo.seq hostOps0_3, StableHlo.seq hostOps0_4,
          Prog.lift (.customCall (Pipeline.entry 0) ()), StableHlo.seq hostOps1,
          Prog.lift (.customCall (Pipeline.entry 1) ()), StableHlo.seq hostOps2,
          Prog.lift (.customCall (Pipeline.entry 2) ()), StableHlo.seq hostOps3,
          Prog.lift (.customCall (Pipeline.entry 3) ()), StableHlo.seq hostOps4,
          Prog.lift (.customCall (Pipeline.entry 4) ()), StableHlo.seq hostOps5,
          Prog.lift (.customCall (Pipeline.entry 5) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := hch)
    (hinit := ?_) (QY := fun c s => s.mem ((c.tc : Thread nD τ).loc main_v96) = outs 16 main_v96 c ∧ argsKept m s c)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      have g : ∀ r : Ref sig .tc, ¬ (Proc.devRef (τ := τ) .tc r).isScoped → s'.mem.mem ((c.tc : Thread nD τ).loc r) = V16 m outs c r :=
        fun r hr => h _ (Finset.mem_filter.mpr ⟨StableHlo.devRef_mem_tcRefs r, hr⟩)
      exact ⟨(g main_v96 (by decide)).trans (V16_main_v96 m outs c),
        (g main_arg0 (by decide)).trans (V16_main_arg0 m outs c),
        (g main_arg1 (by decide)).trans (V16_main_arg1 m outs c),
        (g main_arg2 (by decide)).trans (V16_main_arg2 m outs c),
        (g main_arg3 (by decide)).trans (V16_main_arg3 m outs c),
        (g main_arg4 (by decide)).trans (V16_main_arg4 m outs c),
        (g main_arg5 (by decide)).trans (V16_main_arg5 m outs c),
        (g main_arg6 (by decide)).trans (V16_main_arg6 m outs c),
        (g main_arg7 (by decide)).trans (V16_main_arg7 m outs c),
        (g main_arg8 (by decide)).trans (V16_main_arg8 m outs c),
        (g main_arg9 (by decide)).trans (V16_main_arg9 m outs c),
        (g main_arg10 (by decide)).trans (V16_main_arg10 m outs c),
        (g main_arg11 (by decide)).trans (V16_main_arg11 m outs c),
        (g main_arg12 (by decide)).trans (V16_main_arg12 m outs c),
        (g main_arg13 (by decide)).trans (V16_main_arg13 m outs c),
        (g main_arg14 (by decide)).trans (V16_main_arg14 m outs c),
        (g main_arg15 (by decide)).trans (V16_main_arg15 m outs c)⟩
    · iexact HSI

end Cert.Kernel.Gen

end
-- ==== Proof.K.Run.lean ====
import proofs.«421459_j2104533975239_3_alg».proof.Proof.K.Region0
import proofs.«421459_j2104533975239_3_alg».proof.Proof.K.Region1
import proofs.«421459_j2104533975239_3_alg».proof.Proof.K.Region2
import proofs.«421459_j2104533975239_3_alg».proof.Proof.K.Region3
import proofs.«421459_j2104533975239_3_alg».proof.Proof.K.Region4
import proofs.«421459_j2104533975239_3_alg».proof.Proof.K.Region5
import proofs.«421459_j2104533975239_3_alg».proof.Proof.K.RunCond

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section General

variable {p : Fin 6}

/-- A valuation updated at one array of the region agrees with it off the region's arrays. -/
theorem update_rest (V : Valuation τ sig (Elt F)) (wo : Fin (cfgs p).W) (x) (b : Ref sig .tc)
    (hb : b ∉ Finset.univ.image (Pipeline.arrRef (cfgs p).spec)) :
    Function.update V (Pipeline.arrRef (cfgs p).spec wo) x b = V b :=
  Function.update_of_ne (StableHlo.devRef_ne_of_ne fun h => hb (Finset.mem_image.mpr ⟨wo, Finset.mem_univ _, h.symm⟩)) _ _

/-- Only window `wo` is written back, so every array ends as the entry valuation updated at `wo`'s array has it. -/
theorem arrAt_update (kit : Pipeline.LaunchFacts (nD := nD) (τ := τ) cfgs p) {c : Dev nD} (dat : Dat τ (Elt F) Unit ℕ (UR sig nD τ) ℕ (cfgs p) c) (V : Valuation τ sig (Elt F))
    (wo : Fin (cfgs p).W) (hA : ∀ w, dat.A w = V (Pipeline.arrRef (cfgs p).spec w))
    (hio : ∀ w, w ≠ wo → ((cfgs p).win w).isOut = false) (w : Fin (cfgs p).W) :
    dat.arrAt w (cfgs p).N = Function.update V (Pipeline.arrRef (cfgs p).spec wo)
      (Pipeline.withArrays (cfgs p).spec c V (dat.arrAt · (cfgs p).N) (Pipeline.arrRef (cfgs p).spec wo)) (Pipeline.arrRef (cfgs p).spec w) := by
  by_cases h : w = wo
  · subst h; rw [Function.update_self]; exact (Pipeline.withArrays_arr _ kit.win.arr_inj c V (dat.arrAt · (cfgs p).N) w).symm
  · rw [Function.update_of_ne (StableHlo.devRef_ne_of_ne fun e => h (kit.win.arr_inj e)), dat.arrAt_in w (hio w h), hA]

set_option backward.isDefEq.respectTransparency.types false in
/-- Any of the six regions as a segment: from the valuation `V` to `V` updated at the one array the region writes. -/
def regOf (kit : Pipeline.LaunchFacts (nD := nD) (τ := τ) cfgs p) (pd : (p : Fin 6) → (c : Dev nD) → Dat τ (Elt F) Unit ℕ (UR sig nD τ) ℕ (cfgs p) c)
    (V V' : Dev nD → Valuation τ sig (Elt F)) (wo : Fin (cfgs p).W) (hio : ∀ w, w ≠ wo → ((cfgs p).win w).isOut = false)
    (hb : ∀ c, BodyObligation (pd p c) (defs₀ (F := F)) Variants.none () Set.univ)
    (hA : ∀ c w, (pd p c).A w = V c (Pipeline.arrRef (cfgs p).spec w)) (hq : ∀ c w, (pd p c).q w = fullShare)
    (ho : ∀ c t, (pd p c).owed t = 0) (hr : ∀ c, (pd p c).recorded 0 = Set.univ)
    (hV' : ∀ c, V' c = Function.update (V c) (Pipeline.arrRef (cfgs p).spec wo)
      (Pipeline.withArrays (cfgs p).spec c (V c) ((pd p c).arrAt · (cfgs p).N) (Pipeline.arrRef (cfgs p).spec wo)))
    (hin : ∀ c, (Pipeline.ΦA (cfgs p).spec c : sProp 𝕄) ⊢ (pd p c).Φ 0)
    (hout : ∀ c, (pd p c).Φ (Fin.last _) ⊢ (Pipeline.ΦA (cfgs p).spec c : sProp 𝕄)) :
    Pipeline.RegionSeg (pcfgs (F := F)) adm pd () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pd kit.win kit.arr_whole c
      ((pd p c).share_full (hq c)) (fun b => V c b) (hA c)
    rw [Pipeline.unscopedBufs_held] at hsplit
    unfold Pipeline.Dat.owesAt Pipeline.owesWithin Pipeline.prefHeld
    rw [ho c, show (Finset.univ : Finset (Fin 0)) = ∅ from rfl, BI.bigSep_empty]
    iintro ⟨⟨Hub, Hp, HO⟩, -, -⟩
    ihave H := hsplit $$ Hub
    icases H with ⟨Ha, Hrest⟩
    imodintro
    isplitl [Ha]; · iexact Ha
    isplitr; · iempintro
    isplitl [HO]
    · icases HO with ⟨%W, HO⟩; iexists W; isplitr; · ipureintro; exact fun _ _ => Or.inl (hr c ▸ Set.mem_univ _)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c pd ((pd p c).share_full (hq c)) (fun b => V c b) (fun b => V' c b) ((pd p c).arrAt · (cfgs p).N)
      (fun w => by rw [hV' c]; exact arrAt_update kit (pd p c) (V c) wo (hA c) hio w)
      (fun b hb => by rw [hV' c]; exact update_rest (V c) wo _ b hb)
    rw [Pipeline.unscopedBufs_held] at hjoin
    unfold Pipeline.Dat.owesAt Pipeline.owesWithin
    rw [ho c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end General

variable (m : (ℓ : Loc nD τ sig) → Buf (Elt F) ℓ) (ρ : Dev nD → PrngReg)

abbrev En0 : (c : Dev nD) → (b : Ref sig .tc) → Buf (Elt F) ((c : Thread nD τ).loc b) := fun c b => V5 m c b
def U6 (c : Dev nD) : Valuation τ sig (Elt F) :=
  Pipeline.withArrays spec0 c (V5 m c) fun w => (dat0 (En0 m) c).arrAt w cfg0.N
def Y6 (c : Dev nD) : Valuation τ sig (Elt F) := Function.update (V5 m c) main_v29 (U6 m c main_v29)
def Y7 (c : Dev nD) : Valuation τ sig (Elt F) := StableHlo.after hostOps1 (Y6 m c)

abbrev En1 : (c : Dev nD) → (b : Ref sig .tc) → Buf (Elt F) ((c : Thread nD τ).loc b) := fun c b => Y7 m c b
def U8 (c : Dev nD) : Valuation τ sig (Elt F) :=
  Pipeline.withArrays spec1 c (Y7 m c) fun w => (dat1 (En1 m) c).arrAt w cfg1.N
def Y8 (c : Dev nD) : Valuation τ sig (Elt F) := Function.update (Y7 m c) main_v42 (U8 m c main_v42)
def Y9 (c : Dev nD) : Valuation τ sig (Elt F) := StableHlo.after hostOps2 (Y8 m c)

abbrev En2 : (c : Dev nD) → (b : Ref sig .tc) → Buf (Elt F) ((c : Thread nD τ).loc b) := fun c b => Y9 m c b
def U10 (c : Dev nD) : Valuation τ sig (Elt F) :=
  Pipeline.withArrays spec2 c (Y9 m c) fun w => (dat2 (En2 m) c).arrAt w cfg2.N
def Y10 (c : Dev nD) : Valuation τ sig (Elt F) := Function.update (Y9 m c) main_v55 (U10 m c main_v55)
def Y11 (c : Dev nD) : Valuation τ sig (Elt F) := StableHlo.after hostOps3 (Y10 m c)

abbrev En3 : (c : Dev nD) → (b : Ref sig .tc) → Buf (Elt F) ((c : Thread nD τ).loc b) := fun c b => Y11 m c b
def U12 (c : Dev nD) : Valuation τ sig (Elt F) :=
  Pipeline.withArrays spec3 c (Y11 m c) fun w => (dat3 (En3 m) c).arrAt w cfg3.N
def Y12 (c : Dev nD) : Valuation τ sig (Elt F) := Function.update (Y11 m c) main_v68 (U12 m c main_v68)
def Y13 (c : Dev nD) : Valuation τ sig (Elt F) := StableHlo.after hostOps4 (Y12 m c)

abbrev En4 : (c : Dev nD) → (b : Ref sig .tc) → Buf (Elt F) ((c : Thread nD τ).loc b) := fun c b => Y13 m c b
def U14 (c : Dev nD) : Valuation τ sig (Elt F) :=
  Pipeline.withArrays spec4 c (Y13 m c) fun w => (dat4 (En4 m) c).arrAt w cfg4.N
def Y14 (c : Dev nD) : Valuation τ sig (Elt F) := Function.update (Y13 m c) main_v81 (U14 m c main_v81)
def Y15 (c : Dev nD) : Valuation τ sig (Elt F) := StableHlo.after hostOps5 (Y14 m c)

abbrev En5 : (c : Dev nD) → (b : Ref sig .tc) → Buf (Elt F) ((c : Thread nD τ).loc b) := fun c b => Y15 m c b
def U16 (c : Dev nD) : Valuation τ sig (Elt F) :=
  Pipeline.withArrays spec5 c (Y15 m c) fun w => (dat5 (En5 m) c).arrAt w cfg5.N
def Y16 (c : Dev nD) : Valuation τ sig (Elt F) := Function.update (Y15 m c) main_v96 (U16 m c main_v96)

def outsF : Outs (F := F) := fun J r c =>
  match J with
  | 6 => U6 m c r
  | 8 => U8 m c r
  | 10 => U10 m c r
  | 12 => U12 m c r
  | 14 => U14 m c r
  | _ => U16 m c r

theorem Y6_eq (c : Dev nD) : V6 m (outsF m) c = Y6 m c := rfl
theorem Y7_eq (c : Dev nD) : V7 m (outsF m) c = Y7 m c := congrArg (StableHlo.after hostOps1) (Y6_eq m c)
theorem Y8_eq (c : Dev nD) : V8 m (outsF m) c = Y8 m c := by
  show Function.update (V7 m (outsF m) c) main_v42 (outsF m 8 main_v42 c) = _; rw [Y7_eq]; rfl
theorem Y9_eq (c : Dev nD) : V9 m (outsF m) c = Y9 m c := congrArg (StableHlo.after hostOps2) (Y8_eq m c)
theorem Y10_eq (c : Dev nD) : V10 m (outsF m) c = Y10 m c := by
  show Function.update (V9 m (outsF m) c) main_v55 (outsF m 10 main_v55 c) = _; rw [Y9_eq]; rfl
theorem Y11_eq (c : Dev nD) : V11 m (outsF m) c = Y11 m c := congrArg (StableHlo.after hostOps3) (Y10_eq m c)
theorem Y12_eq (c : Dev nD) : V12 m (outsF m) c = Y12 m c := by
  show Function.update (V11 m (outsF m) c) main_v68 (outsF m 12 main_v68 c) = _; rw [Y11_eq]; rfl
theorem Y13_eq (c : Dev nD) : V13 m (outsF m) c = Y13 m c := congrArg (StableHlo.after hostOps4) (Y12_eq m c)
theorem Y14_eq (c : Dev nD) : V14 m (outsF m) c = Y14 m c := by
  show Function.update (V13 m (outsF m) c) main_v81 (outsF m 14 main_v81 c) = _; rw [Y13_eq]; rfl
theorem Y15_eq (c : Dev nD) : V15 m (outsF m) c = Y15 m c := congrArg (StableHlo.after hostOps5) (Y14_eq m c)
theorem Y16_eq (c : Dev nD) : V16 m (outsF m) c = Y16 m c := by
  show Function.update (V15 m (outsF m) c) main_v96 (outsF m 16 main_v96 c) = _; rw [Y15_eq]; rfl

attribute [irreducible] Y7 Y9 Y11 Y13 Y15

theorem U6_arr (c : Dev nD) (w : Fin cfg0.W) :
    U6 m c (Proc.devRef .tc (Pipeline.arrRef spec0 w)) = (dat0 (En0 m) c).arrAt w cfg0.N :=
  Pipeline.withArrays_arr spec0 launch0.win.arr_inj c _ _ w
theorem Y6_self (c : Dev nD) : Y6 m c main_v29 = U6 m c main_v29 := Function.update_self ..
theorem U8_arr (c : Dev nD) (w : Fin cfg1.W) :
    U8 m c (Proc.devRef .tc (Pipeline.arrRef spec1 w)) = (dat1 (En1 m) c).arrAt w cfg1.N :=
  Pipeline.withArrays_arr spec1 launch1.win.arr_inj c _ _ w
theorem Y8_self (c : Dev nD) : Y8 m c main_v42 = U8 m c main_v42 := Function.update_self ..
theorem U10_arr (c : Dev nD) (w : Fin cfg2.W) :
    U10 m c (Proc.devRef .tc (Pipeline.arrRef spec2 w)) = (dat2 (En2 m) c).arrAt w cfg2.N :=
  Pipeline.withArrays_arr spec2 launch2.win.arr_inj c _ _ w
theorem Y10_self (c : Dev nD) : Y10 m c main_v55 = U10 m c main_v55 := Function.update_self ..
theorem U12_arr (c : Dev nD) (w : Fin cfg3.W) :
    U12 m c (Proc.devRef .tc (Pipeline.arrRef spec3 w)) = (dat3 (En3 m) c).arrAt w cfg3.N :=
  Pipeline.withArrays_arr spec3 launch3.win.arr_inj c _ _ w
theorem Y12_self (c : Dev nD) : Y12 m c main_v68 = U12 m c main_v68 := Function.update_self ..
theorem U14_arr (c : Dev nD) (w : Fin cfg4.W) :
    U14 m c (Proc.devRef .tc (Pipeline.arrRef spec4 w)) = (dat4 (En4 m) c).arrAt w cfg4.N :=
  Pipeline.withArrays_arr spec4 launch4.win.arr_inj c _ _ w
theorem Y14_self (c : Dev nD) : Y14 m c main_v81 = U14 m c main_v81 := Function.update_self ..

def pdats : (p : Fin 6) → (c : Dev nD) → Dat τ (Elt F) Unit ℕ (UR sig nD τ) ℕ (cfgs p) c
  | ⟨0, _⟩ => dat0 (En0 m)
  | ⟨1, _⟩ => dat1 (En1 m)
  | ⟨2, _⟩ => dat2 (En2 m)
  | ⟨3, _⟩ => dat3 (En3 m)
  | ⟨4, _⟩ => dat4 (En4 m)
  | ⟨5, _⟩ => dat5 (En5 m)

def reg0 : Pipeline.RegionSeg (pcfgs (F := F)) adm (pdats m) () defs₀ 𝒱₀ L lv 0 :=
  regOf launch0 (pdats m) (V5 m) (V6 m (outsF m)) (2 : Fin 3) (by decide) (body_obligation0 (En0 m))
    (fun _ _ => rfl) (fun _ _ => rfl) (fun _ _ => rfl) (fun _ => rfl) (fun _ => rfl) (fun _ => .rfl) (fun _ => .rfl)
def reg1 : Pipeline.RegionSeg (pcfgs (F := F)) adm (pdats m) () defs₀ 𝒱₀ L lv 1 :=
  regOf launch1 (pdats m) (V7 m (outsF m)) (V8 m (outsF m)) (4 : Fin 5) (by decide) (body_obligation1 (En1 m))
    (fun c _ => (congrFun (Y7_eq m c) _).symm) (fun _ _ => rfl) (fun _ _ => rfl) (fun _ => rfl) (fun c => by rw [Y8_eq m c, Y7_eq m c]; rfl) (fun _ => .rfl) (fun _ => .rfl)
def reg2 : Pipeline.RegionSeg (pcfgs (F := F)) adm (pdats m) () defs₀ 𝒱₀ L lv 2 :=
  regOf launch2 (pdats m) (V9 m (outsF m)) (V10 m (outsF m)) (4 : Fin 5) (by decide) (body_obligation2 (En2 m))
    (fun c _ => (congrFun (Y9_eq m c) _).symm) (fun _ _ => rfl) (fun _ _ => rfl) (fun _ => rfl) (fun c => by rw [Y10_eq m c, Y9_eq m c]; rfl) (fun _ => .rfl) (fun _ => .rfl)
def reg3 : Pipeline.RegionSeg (pcfgs (F := F)) adm (pdats m) () defs₀ 𝒱₀ L lv 3 :=
  regOf launch3 (pdats m) (V11 m (outsF m)) (V12 m (outsF m)) (4 : Fin 5) (by decide) (body_obligation3 (En3 m))
    (fun c _ => (congrFun (Y11_eq m c) _).symm) (fun _ _ => rfl) (fun _ _ => rfl) (fun _ => rfl) (fun c => by rw [Y12_eq m c, Y11_eq m c]; rfl) (fun _ => .rfl) (fun _ => .rfl)
def reg4 : Pipeline.RegionSeg (pcfgs (F := F)) adm (pdats m) () defs₀ 𝒱₀ L lv 4 :=
  regOf launch4 (pdats m) (V13 m (outsF m)) (V14 m (outsF m)) (4 : Fin 5) (by decide) (body_obligation4 (En4 m))
    (fun c _ => (congrFun (Y13_eq m c) _).symm) (fun _ _ => rfl) (fun _ _ => rfl) (fun _ => rfl) (fun c => by rw [Y14_eq m c, Y13_eq m c]; rfl) (fun _ => .rfl) (fun _ => .rfl)
def reg5 : Pipeline.RegionSeg (pcfgs (F := F)) adm (pdats m) () defs₀ 𝒱₀ L lv 5 :=
  regOf launch5 (pdats m) (V15 m (outsF m)) (V16 m (outsF m)) (8 : Fin 9) (by decide) (body_obligation5 (En5 m))
    (fun c _ => (congrFun (Y15_eq m c) _).symm) (fun _ _ => rfl) (fun _ _ => rfl) (fun _ => rfl) (fun c => by rw [Y16_eq m c, Y15_eq m c]; rfl) (hin5 (En5 m)) (hout5 (En5 m))

set_option backward.isDefEq.respectTransparency.types false in
/-- The program terminates on every weakly fair execution; its result array ends at what region 5 leaves, its arguments as launched. -/
theorem run_main : θ_run defs (onTc (τ := τ) (main (F := F))) ⟨m, fun _ => 0, ρ⟩ (fun r => ∀ c : Dev nD,
      r.2.mem ((c.tc : Thread nD τ).loc main_v96) = outsF m 16 main_v96 c ∧ argsKept m r.2 c) :=
  run_cond (m := m) (EP := emb₁) (ι := ()) (𝒱₀ := 𝒱₀) (L := L) (lv := lv) (hL := fun _ _ => rfl) (ρ := ρ) (outs := outsF m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (R0 := reg0 m) (R1 := reg1 m) (R2 := reg2 m) (R3 := reg3 m) (R4 := reg4 m) (R5 := reg5 m)
    (hch := fun c => ⟨.rfl, .rfl, .rfl, .rfl, .rfl, .rfl, .rfl, .rfl, .rfl, .rfl, .rfl, .rfl, .rfl, .rfl, .rfl, .rfl,
      sep_mono .rfl (by iintro ⟨-, HO⟩; iexact HO)⟩)

theorem outsF_result (c : Dev nD) : outsF m 16 main_v96 c = (dat5 (En5 m) c).arrAt 8 cfg5.N :=
  Pipeline.withArrays_arr spec5 launch5.win.arr_inj c (Y15 m c) (fun w => (dat5 (En5 m) c).arrAt w cfg5.N) 8

theorem frame_main : θ_run defs (onTc (τ := τ) (main (F := F))) ⟨m, fun _ => 0, ρ⟩ (fun r => ∀ c : Dev nD, argsKept m r.2 c) :=
  (θ_run defs _ _).mono (fun _ h c => (h c).2) (run_main m ρ)

end Cert.Kernel.Gen

end
-- ==== Proof.KI.Region0.lean ====
import proofs.«421459_j2104533975239_3_alg».proof.Proof.Gen.KernelIdeal.Launch
import proofs.«421459_j2104533975239_3_alg».proof.Proof.Gen.KernelIdeal.Skeleton
import proofs.«421459_j2104533975239_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] (V : (c : Dev nD) → (b : Ref sig .tc) → Buf (Elt F) ((c : Thread nD τ).loc b))

local notation "𝕄" => MT nD τ sig Unit (Elt F) ℕ (UR sig nD τ) ℕ

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4000x128 := Rect.unit (s := S4000x128) ![0, 0] S4000x128.size inb_S4000x128_S4000x128_0_0
abbrev r0_1 : Rect S4000x1 := Rect.unit (s := S4000x1) ![0, 0] S4000x1.size inb_S4000x1_S4000x1_0_0

def out0_2 (x0 : Vec F S4000x128 .f32) (x1 : Vec F S4000x1 .f32) : Vec F S4000x128 .bf16 :=
  View.canon [⟨r0_0, k0_pay1 (View.ld x0 r0_0) (View.ld x1 r0_1)⟩]

theorem cover0_2 (p0 : Vec F S4000x128 .bf16) (y : S4000x128.Idx) :
    ∃ pc ∈ ([⟨r0_0, p0⟩] : List (View.Piece (Elt F) S4000x128 .bf16)), y ∈ pc.1.set :=
  View.cover_of_tiled [⟨r0_0, p0⟩] S4000x128.size (by rfl) y

set_option maxHeartbeats 1000000 in
/-- The row rescale's body keeps its two inputs and leaves `out0_2` of them as its third. -/
theorem sound_scale (c : Dev nD) (i : grid0.Coords) (arg1 : Memref sig .tc .vmem S4000x128 .f32) (harg1 : arg1.IsWhole)
    (arg2 : Memref sig .tc .vmem S4000x1 .f32) (harg2 : arg2.IsWhole) (arg3 : Memref sig .tc .vmem S4000x128 .bf16) (harg3 : arg3.IsWhole)
    (x0 : Vec F S4000x128 .f32) (x1 : Vec F S4000x1 .f32) (g : Vec F S4000x128 .bf16 → Vec F S4000x128 .bf16) (Φ O : sProp 𝕄) :
    iprop(Φ ∗ O ∗ (∃ _ : Vec F S4000x128 .f32, owns c arg1 fullShare x0) ∗ (∃ _ : Vec F S4000x1 .f32, owns c arg2 fullShare x1)
        ∗ (∃ d, owns c arg3 fullShare (g d)))
      ⊢ wp frame (wpE (defs₀ (F := F)) Variants.none c none) Set.univ (cc0__scale_kernel i arg1 harg1 arg2 harg2 arg3 harg3) fun _ =>
        iprop(Φ ∗ O ∗ owns c arg1 fullShare x0 ∗ owns c arg2 fullShare x1 ∗ owns c arg3 fullShare (out0_2 x0 x1)) := by
  simp only [cc0__scale_kernel_eq_skeleton]; unfold cc0__scale_kernel_skel
  unfold owns
  iintro ⟨HΦ, HO, ⟨%_, %f0, %hf0, H0⟩, ⟨%_, %f1, %hf1, H1⟩, ⟨%d2, %f2, -, H2⟩⟩
  subst hf0 hf1
  sl_exec
  sl_step
  isplitl [HΦ]; · iexact HΦ
  isplitl [HO]; · iexact HO
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem before0 (c : Dev nD) (t : Fin cfg0.N) : (∀ d, (dat0 V c).before 0 t d = iblk0 V c 0 t) ∧ (∀ d, (dat0 V c).before 1 t d = iblk0 V c 1 t) := by
  refine ⟨?_, ?_⟩ <;> exact fun d => ((dat0 V c).before_in_eq_fetched _ rfl (fun _ => rfl) (fun _ _ _ => rfl) (fun _ => by dsimp only [dat0]; rfl) t d).trans
    (by unfold Dat.fetched Dat.blockOf; dsimp only [dat0]; rfl)

theorem body_obligation0 (c : Dev nD) : BodyObligation (dat0 (F := F) V c) (defs₀ (F := F)) Variants.none () Set.univ := fun t => by
  rw [bigSep_W0, bigSep_W0]
  obtain ⟨h0, h1⟩ := before0 V c t
  simp only [h0, h1]
  dsimp only [dat0]
  exact sound_scale c (grid0.coords t) _ (hstage0_0 _) _ (hstage0_1 _) _ (hstage0_2 _) (iblk0 V c 0 t) (iblk0 V c 1 t) _ _ _

end Cert.KernelIdeal.Gen

end
-- ==== Proof.KI.Region1.lean ====
import proofs.«421459_j2104533975239_3_alg».proof.Proof.Gen.KernelIdeal.Launch
import proofs.«421459_j2104533975239_3_alg».proof.Proof.Gen.KernelIdeal.Skeleton
import proofs.«421459_j2104533975239_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] (V : (c : Dev nD) → (b : Ref sig .tc) → Buf (Elt F) ((c : Thread nD τ).loc b))

local notation "𝕄" => MT nD τ sig Unit (Elt F) ℕ (UR sig nD τ) ℕ

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x128 := Rect.unit (s := S4000x128) ![0, 0] S4000x128.size inb_S4000x128_S4000x128_0_0
abbrev r1_1 : Rect S4000x2 := Rect.unit (s := S4000x2) ![0, 0] S4000x2.size inb_S4000x2_S4000x2_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0

def out1_4 (x0 : Vec F S4000x128 .f32) (x1 : Vec F S4000x2 .f32) (x2 : Vec F S128x128 .f32) (x3 : Vec F S1x128 .f32) : Vec F S4000x128 .bf16 :=
  View.canon [⟨r1_0, k1_pay1 (View.ld x0 r1_0) (View.ld x1 r1_1) (View.ld x2 r1_2) (View.ld x3 r1_3)⟩]

theorem cover1_4 (p0 : Vec F S4000x128 .bf16) (y : S4000x128.Idx) :
    ∃ pc ∈ ([⟨r1_0, p0⟩] : List (View.Piece (Elt F) S4000x128 .bf16)), y ∈ pc.1.set :=
  View.cover_of_tiled [⟨r1_0, p0⟩] S4000x128.size (by rfl) y

set_option maxHeartbeats 1000000 in
/-- The layer's body, under any name `kern` of its function: it keeps its four inputs and leaves `out` of them as its fifth. -/
theorem sound_conv {kern : _} (hk : kern = cc1__conv_scaled_kernel (F := F)) {out : _} (ho : out = out1_4 (F := F)) (c : Dev nD) (i : grid1.Coords)
    (arg1 : Memref sig .tc .vmem S4000x128 .f32) (harg1 : arg1.IsWhole) (arg2 : Memref sig .tc .vmem S4000x2 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S4000x128 .bf16) (harg5 : arg5.IsWhole)
    (x0 : Vec F S4000x128 .f32) (x1 : Vec F S4000x2 .f32) (x2 : Vec F S128x128 .f32) (x3 : Vec F S1x128 .f32)
    (g : Vec F S4000x128 .bf16 → Vec F S4000x128 .bf16) (Φ O : sProp 𝕄) :
    iprop(Φ ∗ O ∗ (∃ _ : Vec F S4000x128 .f32, owns c arg1 fullShare x0) ∗ (∃ _ : Vec F S4000x2 .f32, owns c arg2 fullShare x1)
        ∗ (∃ _ : Vec F S128x128 .f32, owns c arg3 fullShare x2) ∗ (∃ _ : Vec F S1x128 .f32, owns c arg4 fullShare x3)
        ∗ (∃ d, owns c arg5 fullShare (g d)))
      ⊢ wp frame (wpE (defs₀ (F := F)) Variants.none c none) Set.univ (kern i arg1 harg1 arg2 harg2 arg3 harg3 arg4 harg4 arg5 harg5) fun _ =>
        iprop(Φ ∗ O ∗ owns c arg1 fullShare x0 ∗ owns c arg2 fullShare x1 ∗ owns c arg3 fullShare x2
          ∗ owns c arg4 fullShare x3 ∗ owns c arg5 fullShare (out x0 x1 x2 x3)) := by
  subst hk ho
  simp only [cc1__conv_scaled_kernel_eq_skeleton]; unfold cc1__conv_scaled_kernel_skel
  unfold owns
  iintro ⟨HΦ, HO, ⟨%_, %f0, %hf0, H0⟩, ⟨%_, %f1, %hf1, H1⟩, ⟨%_, %f2, %hf2, H2⟩, ⟨%_, %f3, %hf3, H3⟩, ⟨%d4, %f4, -, H4⟩⟩
  subst hf0 hf1 hf2 hf3
  sl_exec
  sl_step
  isplitl [HΦ]; · iexact HΦ
  isplitl [HO]; · iexact HO
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = out1_4 (iblk1 V c 0 t) (iblk1 V c 1 t) (iblk1 V c 2 t) (iblk1 V c 3 t) := by dsimp only [dat1]

theorem before1 (c : Dev nD) (t : Fin cfg1.N) : (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t) := by
  refine ⟨?_, ?_, ?_, ?_⟩ <;> exact fun d => ((dat1 V c).before_in_eq_fetched _ rfl (fun _ => rfl) (fun _ _ _ => rfl) (fun _ => by dsimp only [dat1]; rfl) t d).trans
    (by unfold Dat.fetched Dat.blockOf; dsimp only [dat1]; rfl)

theorem body_obligation1 (c : Dev nD) : BodyObligation (dat1 (F := F) V c) (defs₀ (F := F)) Variants.none () Set.univ := fun t => by
  rw [bigSep_W1, bigSep_W1]
  obtain ⟨h0, h1, h2, h3⟩ := before1 V c t
  simp only [h0, h1, h2, h3]
  dsimp only [dat1]
  exact sound_conv (kern := cc1__conv_scaled_kernel) rfl (out := out1_4) rfl c (grid1.coords t) _ (hstage1_0 _) _ (hstage1_1 _) _ (hstage1_2 _) _ (hstage1_3 _) _ (hstage1_4 _)
    (iblk1 V c 0 t) (iblk1 V c 1 t) (iblk1 V c 2 t) (iblk1 V c 3 t) _ _ _

end Cert.KernelIdeal.Gen

end
-- ==== Proof.KI.Region2.lean ====
import proofs.«421459_j2104533975239_3_alg».proof.Proof.KI.Region1

noncomputable section

namespace Cert.KernelIdeal.Gen

open Idealize.ShloMosaic Idealize.ShloMosaic.TcCoe Idealize.SL.RA
open Idealize.ShloMosaic.Pipeline (Dat BodyObligation)

variable {F : FTy → Type} [FloatOps F] (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x128 := Rect.unit (s := S4000x128) ![0, 0] S4000x128.size inb_S4000x128_S4000x128_0_0
abbrev r2_1 : Rect S4000x2 := Rect.unit (s := S4000x2) ![0, 0] S4000x2.size inb_S4000x2_S4000x2_0_0
abbrev r2_2 : Rect S128x128 := Rect.unit (s := S128x128) ![0, 0] S128x128.size inb_S128x128_S128x128_0_0
abbrev r2_3 : Rect S1x128 := Rect.unit (s := S1x128) ![0, 0] S1x128.size inb_S1x128_S1x128_0_0

def out2_4 (x0 : Vec F S4000x128 .f32) (x1 : Vec F S4000x2 .f32) (x2 : Vec F S128x128 .f32) (x3 : Vec F S1x128 .f32) : Vec F S4000x128 .bf16 :=
  View.canon [⟨r2_0, k2_pay1 (View.ld x0 r2_0) (View.ld x1 r2_1) (View.ld x2 r2_2) (View.ld x3 r2_3)⟩]

theorem cover2_4 (p0 : Vec F S4000x128 .bf16) (y : S4000x128.Idx) :
    ∃ pc ∈ ([⟨r2_0, p0⟩] : List (View.Piece (Elt F) S4000x128 .bf16)), y ∈ pc.1.set :=
  cover1_4 p0 y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]

theorem before2 (c : Dev nD) (t : Fin cfg2.N) : (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t) := by
  refine ⟨?_, ?_, ?_, ?_⟩ <;> exact fun d => ((dat2 V c).before_in_eq_fetched _ rfl (fun _ => rfl) (fun _ _ _ => rfl) (fun _ => by dsimp only [dat2]; rfl) t d).trans
    (by unfold Dat.fetched Dat.blockOf; dsimp only [dat2]; rfl)

theorem body_obligation2 (c : Dev nD) : BodyObligation (dat2 (F := F) V c) (defs₀ (F := F)) Variants.none () Set.univ := fun t => by
  rw [bigSep_W2, bigSep_W2]
  obtain ⟨h0, h1, h2, h3⟩ := before2 V c t
  simp only [h0, h1, h2, h3]
  dsimp only [dat2]
  exact sound_conv (kern := cc2__conv_scaled_kernel) rfl (out := out2_4) rfl c (grid2.coords t) _ (hstage2_0 _) _ (hstage2_1 _) _ (hstage2_2 _) _ (hstage2_3 _) _ (hstage2_4 _)
    (iblk2 V c 0 t) (iblk2 V c 1 t) (iblk2 V c 2 t) (iblk2 V c 3 t) _ _ _

end Cert.KernelIdeal.Gen

end
-- ==== Proof.KI.Region3.lean ====
import proofs.«421459_j2104533975239_3_alg».proof.Proof.KI.Region1

noncomputable section

namespace Cert.KernelIdeal.Gen

open Idealize.ShloMosaic Idealize.ShloMosaic.TcCoe Idealize.SL.RA
open Idealize.ShloMosaic.Pipeline (Dat BodyObligation)

variable {F : FTy → Type} [FloatOps F] (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S4000x128 := Rect.unit (s := S4000x128) ![0, 0] S4000x128.size inb_S4000x128_S4000x128_0_0
abbrev r3_1 : Rect S4000x2 := Rect.unit (s := S4000x2) ![0, 0] S4000x2.size inb_S4000x2_S4000x2_0_0
abbrev r3_2 : Rect S128x128 := Rect.unit (s := S128x128) ![0, 0] S128x128.size inb_S128x128_S128x128_0_0
abbrev r3_3 : Rect S1x128 := Rect.unit (s := S1x128) ![0, 0] S1x128.size inb_S1x128_S1x128_0_0

def out3_4 (x0 : Vec F S4000x128 .f32) (x1 : Vec F S4000x2 .f32) (x2 : Vec F S128x128 .f32) (x3 : Vec F S1x128 .f32) : Vec F S4000x128 .bf16 :=
  View.canon [⟨r3_0, k3_pay1 (View.ld x0 r3_0) (View.ld x1 r3_1) (View.ld x2 r3_2) (View.ld x3 r3_3)⟩]

theorem cover3_4 (p0 : Vec F S4000x128 .bf16) (y : S4000x128.Idx) :
    ∃ pc ∈ ([⟨r3_0, p0⟩] : List (View.Piece (Elt F) S4000x128 .bf16)), y ∈ pc.1.set :=
  cover1_4 p0 y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) : (dat3 V c).after 4 t = out3_4 (iblk3 V c 0 t) (iblk3 V c 1 t) (iblk3 V c 2 t) (iblk3 V c 3 t) := by dsimp only [dat3]

theorem before3 (c : Dev nD) (t : Fin cfg3.N) : (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t) := by
  refine ⟨?_, ?_, ?_, ?_⟩ <;> exact fun d => ((dat3 V c).before_in_eq_fetched _ rfl (fun _ => rfl) (fun _ _ _ => rfl) (fun _ => by dsimp only [dat3]; rfl) t d).trans
    (by unfold Dat.fetched Dat.blockOf; dsimp only [dat3]; rfl)

theorem body_obligation3 (c : Dev nD) : BodyObligation (dat3 (F := F) V c) (defs₀ (F := F)) Variants.none () Set.univ := fun t => by
  rw [bigSep_W3, bigSep_W3]
  obtain ⟨h0, h1, h2, h3⟩ := before3 V c t
  simp only [h0, h1, h2, h3]
  dsimp only [dat3]
  exact sound_conv (kern := cc3__conv_scaled_kernel) rfl (out := out3_4) rfl c (grid3.coords t) _ (hstage3_0 _) _ (hstage3_1 _) _ (hstage3_2 _) _ (hstage3_3 _) _ (hstage3_4 _)
    (iblk3 V c 0 t) (iblk3 V c 1 t) (iblk3 V c 2 t) (iblk3 V c 3 t) _ _ _

end Cert.KernelIdeal.Gen

end
-- ==== Proof.KI.Region4.lean ====
import proofs.«421459_j2104533975239_3_alg».proof.Proof.KI.Region1

noncomputable section

namespace Cert.KernelIdeal.Gen

open Idealize.ShloMosaic Idealize.ShloMosaic.TcCoe Idealize.SL.RA
open Idealize.ShloMosaic.Pipeline (Dat BodyObligation)

variable {F : FTy → Type} [FloatOps F] (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S4000x128 := Rect.unit (s := S4000x128) ![0, 0] S4000x128.size inb_S4000x128_S4000x128_0_0
abbrev r4_1 : Rect S4000x2 := Rect.unit (s := S4000x2) ![0, 0] S4000x2.size inb_S4000x2_S4000x2_0_0
abbrev r4_2 : Rect S128x128 := Rect.unit (s := S128x128) ![0, 0] S128x128.size inb_S128x128_S128x128_0_0
abbrev r4_3 : Rect S1x128 := Rect.unit (s := S1x128) ![0, 0] S1x128.size inb_S1x128_S1x128_0_0

def out4_4 (x0 : Vec F S4000x128 .f32) (x1 : Vec F S4000x2 .f32) (x2 : Vec F S128x128 .f32) (x3 : Vec F S1x128 .f32) : Vec F S4000x128 .bf16 :=
  View.canon [⟨r4_0, k4_pay1 (View.ld x0 r4_0) (View.ld x1 r4_1) (View.ld x2 r4_2) (View.ld x3 r4_3)⟩]

theorem cover4_4 (p0 : Vec F S4000x128 .bf16) (y : S4000x128.Idx) :
    ∃ pc ∈ ([⟨r4_0, p0⟩] : List (View.Piece (Elt F) S4000x128 .bf16)), y ∈ pc.1.set :=
  cover1_4 p0 y

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) : (dat4 V c).after 4 t = out4_4 (iblk4 V c 0 t) (iblk4 V c 1 t) (iblk4 V c 2 t) (iblk4 V c 3 t) := by dsimp only [dat4]

theorem before4 (c : Dev nD) (t : Fin cfg4.N) : (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t) := by
  refine ⟨?_, ?_, ?_, ?_⟩ <;> exact fun d => ((dat4 V c).before_in_eq_fetched _ rfl (fun _ => rfl) (fun _ _ _ => rfl) (fun _ => by dsimp only [dat4]; rfl) t d).trans
    (by unfold Dat.fetched Dat.blockOf; dsimp only [dat4]; rfl)

theorem body_obligation4 (c : Dev nD) : BodyObligation (dat4 (F := F) V c) (defs₀ (F := F)) Variants.none () Set.univ := fun t => by
  rw [bigSep_W4, bigSep_W4]
  obtain ⟨h0, h1, h2, h3⟩ := before4 V c t
  simp only [h0, h1, h2, h3]
  dsimp only [dat4]
  exact sound_conv (kern := cc4__conv_scaled_kernel) rfl (out := out4_4) rfl c (grid4.coords t) _ (hstage4_0 _) _ (hstage4_1 _) _ (hstage4_2 _) _ (hstage4_3 _) _ (hstage4_4 _)
    (iblk4 V c 0 t) (iblk4 V c 1 t) (iblk4 V c 2 t) (iblk4 V c 3 t) _ _ _

end Cert.KernelIdeal.Gen

end
-- ==== Proof.KI.Region5.lean ====
import proofs.«421459_j2104533975239_3_alg».proof.Proof.Gen.KernelIdeal.Launch
import proofs.«421459_j2104533975239_3_alg».proof.Proof.Gen.KernelIdeal.Skeleton
import proofs.«421459_j2104533975239_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem owns_unread5 (c : Dev nD) {sp : Space} {sh : Shape} {e : EltTy} {m : Memref sig .tc sp sh e} (h : m.IsWhole) (X : Vec F sh e) :
    (owns (c : Thread nD τ) m fullShare X : sProp 𝕄) = (m.view.loc (c : Thread nD τ) ↦[m.view.set]{fullShare} h.unread X) := by
  have h₁ : owns (c : Thread nD τ) m fullShare X ⊢ (m.view.loc (c : Thread nD τ) ↦[m.view.set]{fullShare} h.unread X : sProp 𝕄) := by
    unfold owns; iintro ⟨%f, %hf, H⟩; obtain rfl := h.eq_unread hf; iexact H
  have h₂ : (m.view.loc (c : Thread nD τ) ↦[m.view.set]{fullShare} h.unread X : sProp 𝕄) ⊢ owns (c : Thread nD τ) m fullShare X := by
    unfold owns; iintro H; iexists _; isplitr; swap; · iexact H
    ipureintro; exact h.read_unread X
  exact equiv_iff.mp ⟨h₁, h₂⟩

theorem owns_cover5 (c : Dev nD) {sp sp' : Space} {sh : Shape} {e : EltTy} (m : Memref sig .tc sp sh e) (W : View sig .tc sp' sh e) (L : List (View.Piece (Elt F) sh e))
    (hL : ∀ y, ∃ pc ∈ L, y ∈ pc.1.set) (f : m.view.ty.Contents (Elt F)) :
    (m.view.loc (c : Thread nD τ) ↦[m.view.set]{fullShare} m.view.writes (Elt F) f L : sProp 𝕄)
      ⊢ owns (c : Thread nD τ) m fullShare (W.read (Elt F) (W.writes (Elt F) W.junk L)) := by
  unfold owns; iintro H; iexists _; isplitr; swap; · iexact H
  ipureintro; exact View.read_writes_of_cover _ _ _ _ _ hL

section Regions
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

end Regions

abbrev cond5_0 (i : grid5.Coords) : Prop := (Scalar.cmpi .ne (Scalar.extui (Scalar.cmpi .eq (BitVec.ofNat 32 (i 0).val) 0#32)) 0#32) = 1#1
abbrev cond5_1 (i : grid5.Coords) : Prop := k5_cond2 i = 1#1

theorem hcond5_0 : ∀ t : Fin cfg5.N, cond5_0 (grid5.coords t) ↔ t.val % 25 = 0 :=
  (by decide +kernel : ∀ t : Fin grid5.N, cond5_0 (grid5.coords t) ↔ t.val % 25 = 0)
theorem hcond5_1 : ∀ t : Fin cfg5.N, cond5_1 (grid5.coords t) ↔ t.val % 25 = 24 :=
  (by decide +kernel : ∀ t : Fin grid5.N, cond5_1 (grid5.coords t) ↔ t.val % 25 = 24)

theorem idleAt5_8 : ∀ t : Fin cfg5.N, ¬t.val % 25 = 24 → cfg5.idle 8 (grid5.coords t) = true ∧ (cfg5.win 8).flush t = false := by decide +kernel
theorem liveAt5_8 : ∀ t : Fin cfg5.N, t.val % 25 = 24 → cfg5.idle 8 (grid5.coords t) = false := by decide +kernel

abbrev VO5_8 : View sig .tc .vmem S64x1 .f32 := (Memref.whole cc5_stg8_0 : Memref sig .tc .vmem S64x1 .f32).view
abbrev ms5_0 (t : Fin cfg5.N) : Memref sig .tc .vmem S4000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4000x2 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S4000x1 .i32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S64x1 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S1x1 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S64x1 .f32 := win5_8.stage (cfg5.slots t 8)
abbrev hs5_8 (t : Fin cfg5.N) : (ms5_8 t).IsWhole := hstage5_8 ((cfg5.slots t 8).cast nbuf5_8)
abbrev scM5_0 : Memref sig .tc .vmem S128x128 .f32 := Memref.whole cc5_scratch0
abbrev VS5_0 : View sig .tc .vmem S128x128 .f32 := scM5_0.view

abbrev rest5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop(iprop((∃ d, owns (c : Thread nD τ) scM5_0 fullShare d)) ∗ rest5 (F := F) c) ∗ (∃ r, prngReg c r)) := by
  unfold Pipeline.ΦA; rw [scopedRest5_split]; simp only [scM5_0, owns_whole]; try rfl

section Body
variable (c : Dev nD) (i : grid5.Coords) (arg1 : Memref sig .tc .vmem S4000x128 .f32) (harg1 : arg1.IsWhole) (arg2 : Memref sig .tc .vmem S4000x2 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4000x1 .i32) (harg5 : arg5.IsWhole) (arg6 : Memref sig .tc .vmem S64x1 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S64x1 .f32) (harg9 : arg9.IsWhole) (arg10 : Memref sig .tc .vmem S128x128 .f32) (harg10 : arg10.IsWhole)

section A
variable (hc0 : cond5_0 i) (hc1 : ¬cond5_1 i)
    (x0 : Vec F S4000x128 .f32) (x1 : Vec F S4000x2 .f32) (x2 : Vec F S128x128 .f32) (x3 : Vec F S1x128 .f32) (x4 : Vec F S4000x1 .i32) (x5 : Vec F S64x1 .f32) (x6 : Vec F S1x128 .f32) (x7 : Vec F S1x1 .f32)

set_option maxHeartbeats 1000000 in
-- case A, t % 25 = 0: the sum restarts from zero, whatever was there
noncomputable def kernelRun5_A :
    Σ' (L8 : List (View.Piece (Elt F) S64x1 .f32)), { LS0 : List (View.Piece (Elt F) S128x128 .f32) //
      ∀ (xi8 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc5__conv_pool_kernel i arg1 harg1 arg2 harg2 arg3 harg3 arg4 harg4 arg5 harg5 arg6 harg6 arg7 harg7 arg8 harg8 arg9 harg9 arg10 harg10) K } := by
  refine ⟨[], ?_, fun xi8 E K => ?run⟩
  case run =>
    simp only [owns_unread5 c harg1, owns_unread5 c harg2, owns_unread5 c harg3, owns_unread5 c harg4, owns_unread5 c harg5, owns_unread5 c harg6, owns_unread5 c harg7, owns_unread5 c harg8, owns_unread5 c harg9, cc5__conv_pool_kernel_eq_skeleton]
    unfold cc5__conv_pool_kernel_skel owns
    iintro ⟨H0, H1, H2, H3, H4, H5, H6, H7, H8, ⟨%ds0, %fs0, -, HS0⟩, Hk⟩
    sl_exec (disch := first | exact hc0 | exact hc1)
    sl_step
    iapply Hk
    iframe H0 H1 H2 H3 H4 H5 H6 H7 H8
    iexists _; iexact HS0

def out5_A_8 : Vec F S64x1 .f32 :=
  VO5_8.read (Elt F) (VO5_8.writes (Elt F) VO5_8.junk (kernelRun5_A c i arg1 harg1 arg2 harg2 arg3 harg3 arg4 harg4 arg5 harg5 arg6 harg6 arg7 harg7 arg8 harg8 arg9 harg9 arg10 harg10 hc0 hc1 x0 x1 x2 x3 x4 x5 x6 x7).1)

theorem scover5_A_0 (y : S128x128.Idx) :
    ∃ pc ∈ (kernelRun5_A c i arg1 harg1 arg2 harg2 arg3 harg3 arg4 harg4 arg5 harg5 arg6 harg6 arg7 harg7 arg8 harg8 arg9 harg9 arg10 harg10 hc0 hc1 x0 x1 x2 x3 x4 x5 x6 x7).2.1, y ∈ pc.1.set :=
  View.cover_of_tiledL _ S128x128.size (by sl_kernel_rfl) y

def sout5_A_0 : Vec F S128x128 .f32 :=
  VS5_0.read (Elt F) (VS5_0.writes (Elt F) VS5_0.junk (kernelRun5_A c i arg1 harg1 arg2 harg2 arg3 harg3 arg4 harg4 arg5 harg5 arg6 harg6 arg7 harg7 arg8 harg8 arg9 harg9 arg10 harg10 hc0 hc1 x0 x1 x2 x3 x4 x5 x6 x7).2.1)

end A

section B
variable (hc0 : ¬cond5_0 i) (hc1 : ¬cond5_1 i)
    (x0 : Vec F S4000x128 .f32) (x1 : Vec F S4000x2 .f32) (x2 : Vec F S128x128 .f32) (x3 : Vec F S1x128 .f32) (x4 : Vec F S4000x1 .i32) (x5 : Vec F S64x1 .f32) (x6 : Vec F S1x128 .f32) (x7 : Vec F S1x1 .f32) (xs0 : Vec F S128x128 .f32)

set_option maxHeartbeats 1000000 in
-- case B, 0 < t % 25 < 24: one more term is added to the sum xs0 so far
noncomputable def kernelRun5_B :
    Σ' (L8 : List (View.Piece (Elt F) S64x1 .f32)), { LS0 : List (View.Piece (Elt F) S128x128 .f32) //
      ∀ (xi8 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc5__conv_pool_kernel i arg1 harg1 arg2 harg2 arg3 harg3 arg4 harg4 arg5 harg5 arg6 harg6 arg7 harg7 arg8 harg8 arg9 harg9 arg10 harg10) K } := by
  refine ⟨[], ?_, fun xi8 E K => ?run⟩
  case run =>
    simp only [owns_unread5 c harg1, owns_unread5 c harg2, owns_unread5 c harg3, owns_unread5 c harg4, owns_unread5 c harg5, owns_unread5 c harg6, owns_unread5 c harg7, owns_unread5 c harg8, owns_unread5 c harg9, owns_unread5 c harg10, cc5__conv_pool_kernel_eq_skeleton]
    unfold cc5__conv_pool_kernel_skel
    iintro ⟨H0, H1, H2, H3, H4, H5, H6, H7, H8, HS0, Hk⟩
    sl_exec (disch := first | exact hc0 | exact hc1)
    sl_step
    iapply Hk
    iframe H0 H1 H2 H3 H4 H5 H6 H7 H8
    iexists _; iexact HS0

def out5_B_8 : Vec F S64x1 .f32 :=
  VO5_8.read (Elt F) (VO5_8.writes (Elt F) VO5_8.junk (kernelRun5_B c i arg1 harg1 arg2 harg2 arg3 harg3 arg4 harg4 arg5 harg5 arg6 harg6 arg7 harg7 arg8 harg8 arg9 harg9 arg10 harg10 hc0 hc1 x0 x1 x2 x3 x4 x5 x6 x7 xs0).1)

theorem scover5_B_0 (y : S128x128.Idx) :
    ∃ pc ∈ (kernelRun5_B c i arg1 harg1 arg2 harg2 arg3 harg3 arg4 harg4 arg5 harg5 arg6 harg6 arg7 harg7 arg8 harg8 arg9 harg9 arg10 harg10 hc0 hc1 x0 x1 x2 x3 x4 x5 x6 x7 xs0).2.1, y ∈ pc.1.set :=
  View.cover_of_tiledL _ S128x128.size (by sl_kernel_rfl) y

def sout5_B_0 : Vec F S128x128 .f32 :=
  VS5_0.read (Elt F) (VS5_0.writes (Elt F) VS5_0.junk (kernelRun5_B c i arg1 harg1 arg2 harg2 arg3 harg3 arg4 harg4 arg5 harg5 arg6 harg6 arg7 harg7 arg8 harg8 arg9 harg9 arg10 harg10 hc0 hc1 x0 x1 x2 x3 x4 x5 x6 x7 xs0).2.1)

end B

section C
variable (hc0 : ¬cond5_0 i) (hc1 : cond5_1 i)
    (x0 : Vec F S4000x128 .f32) (x1 : Vec F S4000x2 .f32) (x2 : Vec F S128x128 .f32) (x3 : Vec F S1x128 .f32) (x4 : Vec F S4000x1 .i32) (x5 : Vec F S64x1 .f32) (x6 : Vec F S1x128 .f32) (x7 : Vec F S1x1 .f32) (xs0 : Vec F S128x128 .f32)

set_option maxHeartbeats 1000000 in
-- case C, t % 25 = 24: the last term is added and the result is formed from the sum
noncomputable def kernelRun5_C :
    Σ' (L8 : List (View.Piece (Elt F) S64x1 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc5__conv_pool_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [owns_unread5 c harg1, owns_unread5 c harg2, owns_unread5 c harg3, owns_unread5 c harg4, owns_unread5 c harg5, owns_unread5 c harg6, owns_unread5 c harg7, owns_unread5 c harg8, owns_unread5 c harg10, cc5__conv_pool_kernel_eq_skeleton]
    unfold cc5__conv_pool_kernel_skel owns
    iintro ⟨H0, H1, H2, H3, H4, H5, H6, H7, ⟨%d8, %f8, -, H8⟩, HS0, Hk⟩
    sl_exec (disch := first | exact hc0 | exact hc1)
    sl_step
    iapply Hk
    iframe H0 H1 H2 H3 H4 H5 H6 H7
    isplitl [H8]; · iexists _; iexact H8
    iexists _; iexact HS0

theorem cover5_C_8 (y : S64x1.Idx) :
    ∃ pc ∈ (kernelRun5_C c i arg1 harg1 arg2 harg2 arg3 harg3 arg4 harg4 arg5 harg5 arg6 harg6 arg7 harg7 arg8 harg8 arg9 harg9 arg10 harg10 hc0 hc1 x0 x1 x2 x3 x4 x5 x6 x7 xs0).1, y ∈ pc.1.set :=
  View.cover_of_tiledL _ S64x1.size (by sl_kernel_rfl) y

def out5_C_8 : Vec F S64x1 .f32 :=
  VO5_8.read (Elt F) (VO5_8.writes (Elt F) VO5_8.junk (kernelRun5_C c i arg1 harg1 arg2 harg2 arg3 harg3 arg4 harg4 arg5 harg5 arg6 harg6 arg7 harg7 arg8 harg8 arg9 harg9 arg10 harg10 hc0 hc1 x0 x1 x2 x3 x4 x5 x6 x7 xs0).1)

theorem scover5_C_0 (y : S128x128.Idx) :
    ∃ pc ∈ (kernelRun5_C c i arg1 harg1 arg2 harg2 arg3 harg3 arg4 harg4 arg5 harg5 arg6 harg6 arg7 harg7 arg8 harg8 arg9 harg9 arg10 harg10 hc0 hc1 x0 x1 x2 x3 x4 x5 x6 x7 xs0).2.1, y ∈ pc.1.set :=
  View.cover_of_tiledL _ S128x128.size (by sl_kernel_rfl) y

def sout5_C_0 : Vec F S128x128 .f32 :=
  VS5_0.read (Elt F) (VS5_0.writes (Elt F) VS5_0.junk (kernelRun5_C c i arg1 harg1 arg2 harg2 arg3 harg3 arg4 harg4 arg5 harg5 arg6 harg6 arg7 harg7 arg8 harg8 arg9 harg9 arg10 harg10 hc0 hc1 x0 x1 x2 x3 x4 x5 x6 x7 xs0).2.1)

end C

end Body

section Regions
variable (V : (c : Dev nD) → (b : Ref sig .tc) → Buf (Elt F) ((c : Thread nD τ).loc b))

-- one step of the accumulation at point t over the sum p so far, by cases on t % 25
def step5 (c : Dev nD) (t : Fin cfg5.N) (p : Vec F S128x128 .f32) : Vec F S64x1 .f32 × Vec F S128x128 .f32 :=
  if h0 : t.val % 25 = 0 then
    have h1 : ¬t.val % 25 = 24 := by omega
    (out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t))
  else if h1 : t.val % 25 = 24 then
    (out5_C_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) p, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) p)
  else
    (out5_B_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) p, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) p)

def outsAt5 (c : Dev nD) : (n : ℕ) → n < cfg5.N → Vec F S64x1 .f32 × Vec F S128x128 .f32
  | 0, hn => step5 V c ⟨0, hn⟩ (VS5_0.read (Elt F) VS5_0.junk)
  | n + 1, hn => step5 V c ⟨n + 1, hn⟩ (outsAt5 c n (Nat.lt_of_succ_lt hn)).2

theorem outsAt5_A (c : Dev nD) (t : Fin cfg5.N) (h0 : t.val % 25 = 0) (h1 : ¬t.val % 25 = 24) :
    outsAt5 V c t.val t.isLt = (out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t)) := by
  obtain ⟨_ | n, hn⟩ := t
  · rfl
  · exact dif_pos h0

theorem outsAt5_B (c : Dev nD) (t : Fin cfg5.N) (h0 : ¬t.val % 25 = 0) (h1 : ¬t.val % 25 = 24) :
    outsAt5 V c t.val t.isLt = (out5_B_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)).2) := by
  obtain ⟨_ | n, hn⟩ := t
  · exact absurd (Nat.zero_mod 25) h0
  · exact (dif_neg h0).trans (dif_neg h1)

theorem outsAt5_C (c : Dev nD) (t : Fin cfg5.N) (h0 : ¬t.val % 25 = 0) (h1 : t.val % 25 = 24) :
    outsAt5 V c t.val t.isLt = (out5_C_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)).2) := by
  obtain ⟨_ | n, hn⟩ := t
  · exact absurd (Nat.zero_mod 25) h0
  · exact (dif_neg h0).trans (dif_pos h1)

-- the invariant before position n: the sum so far (anything before the first point)
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ rest5 (F := F) c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_8 (c : Dev nD) (t : Fin cfg5.N) : (dat5 V c).after 8 t = (outsAt5 V c t.val t.isLt).1 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl
theorem before5_5 (c : Dev nD) (t : Fin cfg5.N) (d) : (dat5 V c).before 5 t d = iblk5 V c 5 t :=
  ((dat5 V c).before_in_eq_fetched 5 rfl (fun _ => rfl) (fun _ _ _ => rfl) (fun _ => rfl) t d).trans rfl
theorem before5_6 (c : Dev nD) (t : Fin cfg5.N) (d) : (dat5 V c).before 6 t d = iblk5 V c 6 t :=
  ((dat5 V c).before_in_eq_fetched 6 rfl (fun _ => rfl) (fun _ _ _ => rfl) (fun _ => rfl) t d).trans rfl
theorem before5_7 (c : Dev nD) (t : Fin cfg5.N) (d) : (dat5 V c).before 7 t d = iblk5 V c 7 t :=
  ((dat5 V c).before_in_eq_fetched 7 rfl (fun _ => rfl) (fun _ _ _ => rfl) (fun _ => rfl) t d).trans rfl

set_option maxHeartbeats 4800000 in
-- t % 25 selects the case; its run takes the sum the point before left and gives back this point's
theorem sound_body5 (c : Dev nD) (t : Fin cfg5.N) :
    iprop(PhiS5 V c t.val (Nat.le_of_lt t.isLt) ∗ (dat5 V c).owesAt () t.castSucc
      ∗ (∃ d, owns (c : Thread nD τ) (ms5_0 t) fullShare ((dat5 V c).before 0 t d))
      ∗ (∃ d, owns (c : Thread nD τ) (ms5_1 t) fullShare ((dat5 V c).before 1 t d))
      ∗ (∃ d, owns (c : Thread nD τ) (ms5_2 t) fullShare ((dat5 V c).before 2 t d))
      ∗ (∃ d, owns (c : Thread nD τ) (ms5_3 t) fullShare ((dat5 V c).before 3 t d))
      ∗ (∃ d, owns (c : Thread nD τ) (ms5_4 t) fullShare ((dat5 V c).before 4 t d))
      ∗ (∃ d, owns (c : Thread nD τ) (ms5_5 t) fullShare ((dat5 V c).before 5 t d))
      ∗ (∃ d, owns (c : Thread nD τ) (ms5_6 t) fullShare ((dat5 V c).before 6 t d))
      ∗ (∃ d, owns (c : Thread nD τ) (ms5_7 t) fullShare ((dat5 V c).before 7 t d))
      ∗ (∃ d, owns (c : Thread nD τ) (ms5_8 t) fullShare ((dat5 V c).before 8 t d)))
    ⊢ wp frame (wpE (defs₀ (F := F)) Variants.none c none) Set.univ (bodyAt5 t) (fun _ =>
      iprop(iprop(iprop(owns (c : Thread nD τ) scM5_0 fullShare ((outsAt5 V c t.val t.isLt).2) ∗ rest5 (F := F) c) ∗ (∃ r, prngReg c r))
        ∗ (dat5 V c).owesAt () t.castSucc
        ∗ owns (c : Thread nD τ) (ms5_0 t) fullShare (iblk5 V c 0 t) ∗ owns (c : Thread nD τ) (ms5_1 t) fullShare (iblk5 V c 1 t)
        ∗ owns (c : Thread nD τ) (ms5_2 t) fullShare (iblk5 V c 2 t) ∗ owns (c : Thread nD τ) (ms5_3 t) fullShare (iblk5 V c 3 t)
        ∗ owns (c : Thread nD τ) (ms5_4 t) fullShare (iblk5 V c 4 t) ∗ owns (c : Thread nD τ) (ms5_5 t) fullShare (iblk5 V c 5 t)
        ∗ owns (c : Thread nD τ) (ms5_6 t) fullShare (iblk5 V c 6 t) ∗ owns (c : Thread nD τ) (ms5_7 t) fullShare (iblk5 V c 7 t)
        ∗ (dat5 V c).leavesExact 8 t)) := by
  unfold bodyAt5
  simp only [before5_0, before5_1, before5_2, before5_3, before5_4, before5_5, before5_6, before5_7]
  have hN : t.val < 25 := lt_of_lt_of_eq t.isLt (show cfg5.N = 25 from N_5)
  by_cases h1 : t.val % 25 = 24
  · have h0 : ¬t.val % 25 = 0 := by omega
    have hz : t.val ≠ 0 := by omega
    rw [show (dat5 V c).leavesExact 8 t = owns (c : Thread nD τ) (ms5_8 t) fullShare ((dat5 V c).after 8 t) from by
      unfold Dat.leavesExact; rw [liveAt5_8 t h1], after5_8, outsAt5_C V c t h0 h1, PhiS5_pos V c _ _ hz]
    unfold out5_C_8 sout5_C_0; dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun5_C c (grid5.coords t) _ _ _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) _).2.2 Set.univ _)
    iframe H0 H1 H2 H3 H4 H5 H6 H7 HS0
    isplitl [H8]; · iexists _; iexact H8
    iintro ⟨H0, H1, H2, H3, H4, H5, H6, H7, ⟨%e8, H8⟩, ⟨%es0, HS0⟩⟩
    iframe HR Hg Ho H0 H1 H2 H3 H4 H5 H6 H7
    isplitl [HS0]
    · iapply (owns_cover5 c _ _ _ (scover5_C_0 c _ _ _ _ _ _ _ _ _ _ _ _ _ _ _ _ _ _ _ _ _ _ _ _ _ _ _ _ _ _ _ _) _) $$ HS0
    · iapply (owns_cover5 c _ _ _ (cover5_C_8 c _ _ _ _ _ _ _ _ _ _ _ _ _ _ _ _ _ _ _ _ _ _ _ _ _ _ _ _ _ _ _ _) _) $$ H8
  · rw [Dat.leavesExact_idle (dat5 V c) 8 t (idleAt5_8 t h1).1 (idleAt5_8 t h1).2]
    by_cases h0 : t.val % 25 = 0
    · have hz : t.val = 0 := by omega
      rw [outsAt5_A V c t h0 h1, PhiS5_zero V c _ _ hz, PhiA5_eq]
      unfold sout5_A_0; dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_A c (grid5.coords t) _ _ _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t)).2.2 _ Set.univ _)
      iframe H0 H1 H2 H3 H4 H5 H6 H7 H8 HS0
      iintro ⟨H0, H1, H2, H3, H4, H5, H6, H7, H8, ⟨%es0, HS0⟩⟩
      iframe HR Hg Ho H0 H1 H2 H3 H4 H5 H6 H7
      isplitl [HS0]
      · iapply (owns_cover5 c _ _ _ (scover5_A_0 c _ _ _ _ _ _ _ _ _ _ _ _ _ _ _ _ _ _ _ _ _ _ _ _ _ _ _ _ _ _ _) _) $$ HS0
      · iexists _; iexact H8
    · have hz : t.val ≠ 0 := by omega
      rw [outsAt5_B V c t h0 h1, PhiS5_pos V c _ _ hz]
      unfold sout5_B_0; dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_B c (grid5.coords t) _ _ _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) _).2.2 _ Set.univ _)
      iframe H0 H1 H2 H3 H4 H5 H6 H7 H8 HS0
      iintro ⟨H0, H1, H2, H3, H4, H5, H6, H7, H8, ⟨%es0, HS0⟩⟩
      iframe HR Hg Ho H0 H1 H2 H3 H4 H5 H6 H7
      isplitl [HS0]
      · iapply (owns_cover5 c _ _ _ (scover5_B_0 c _ _ _ _ _ _ _ _ _ _ _ _ _ _ _ _ _ _ _ _ _ _ _ _ _ _ _ _ _ _ _ _) _) $$ HS0
      · iexists _; iexact H8

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

-- after any point but the first the sum's value can be forgotten
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  iframe HR Hg
  iexists _; iexact HS0

theorem hout5 (c : Dev nD) : (dat5 V c).Φ (Fin.last cfg5.N) ⊢ Pipeline.ΦA spec5 c :=
  Phi_out5 V c _ (by rw [Fin.val_last]; have : cfg5.N = 25 := N_5; omega)

end Regions

end Cert.KernelIdeal.Gen

end
-- ==== Proof.KI.RunCond.lean ====
import proofs.«421459_j2104533975239_3_alg».proof.Proof.Gen.KernelIdeal.Regions

set_option maxRecDepth 1288

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

theorem V16_main_v96 (c : Dev nD) : V16 m outs c main_v96 = outs 16 main_v96 c := by
  simp only [V16, Function.update_self]

/-- Memory `s` holds every argument array of core `c` as launched. -/
abbrev argsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)
  ∧ s.mem ((c.tc : Thread nD τ).loc main_arg14) = m ((c.tc : Thread nD τ).loc main_arg14)
  ∧ s.mem ((c.tc : Thread nD τ).loc main_arg15) = m ((c.tc : Thread nD τ).loc main_arg15)

set_option backward.isDefEq.respectTransparency.types false in
/-- From one segment per region that chain with the host stretches between them: the run ends, the result as the last region leaves it, the arguments kept. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (R0 : RegionSeg (pcfgs (F := F)) adm pdats ι defs₀ 𝒱₀ L lv 0) (R1 : RegionSeg (pcfgs (F := F)) adm pdats ι defs₀ 𝒱₀ L lv 1)
    (R2 : RegionSeg (pcfgs (F := F)) adm pdats ι defs₀ 𝒱₀ L lv 2) (R3 : RegionSeg (pcfgs (F := F)) adm pdats ι defs₀ 𝒱₀ L lv 3)
    (R4 : RegionSeg (pcfgs (F := F)) adm pdats ι defs₀ 𝒱₀ L lv 4) (R5 : RegionSeg (pcfgs (F := F)) adm pdats ι defs₀ 𝒱₀ L lv 5)
    (hch : ∀ c : Dev nD, Seg.ChainsAt c (fun c => iprop(StableHlo.held (c : Thread nD τ) (Pipeline.ucRefs τ sig) (V0 m c) ∗ E 0 c))
      (segs m outs 𝒱₀ L lv E ι pdats R0 R1 R2 R3 R4 R5 c)
      fun c => iprop(StableHlo.held (c : Thread nD τ) (Pipeline.ucRefs τ sig) (V16 m outs c) ∗ ∃ W, owes (c : Thread nD τ) (0 : CellTallies nD τ sig Ix) W)) :
    θ_run defs (onTc (τ := τ) (main (F := F))) ⟨m, fun _ => 0, ρ⟩ (fun r => ∀ c : Dev nD,
      r.2.mem ((c.tc : Thread nD τ).loc main_v96) = outs 16 main_v96 c ∧ argsKept m r.2 c) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0, StableHlo.seq hostOps0_1, StableHlo.seq hostOps0_2, StableHlo.seq hostOps0_3, StableHlo.seq hostOps0_4,
          Prog.lift (.customCall (Pipeline.entry 0) ()), StableHlo.seq hostOps1,
          Prog.lift (.customCall (Pipeline.entry 1) ()), StableHlo.seq hostOps2,
          Prog.lift (.customCall (Pipeline.entry 2) ()), StableHlo.seq hostOps3,
          Prog.lift (.customCall (Pipeline.entry 3) ()), StableHlo.seq hostOps4,
          Prog.lift (.customCall (Pipeline.entry 4) ()), StableHlo.seq hostOps5,
          Prog.lift (.customCall (Pipeline.entry 5) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := hch)
    (hinit := ?_) (QY := fun c s => s.mem ((c.tc : Thread nD τ).loc main_v96) = outs 16 main_v96 c ∧ argsKept m s c)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      have g : ∀ r : Ref sig .tc, ¬ (Proc.devRef (τ := τ) .tc r).isScoped → s'.mem.mem ((c.tc : Thread nD τ).loc r) = V16 m outs c r :=
        fun r hr => h _ (Finset.mem_filter.mpr ⟨StableHlo.devRef_mem_tcRefs r, hr⟩)
      exact ⟨(g main_v96 (by decide)).trans (V16_main_v96 m outs c),
        (g main_arg0 (by decide)).trans (V16_main_arg0 m outs c),
        (g main_arg1 (by decide)).trans (V16_main_arg1 m outs c),
        (g main_arg2 (by decide)).trans (V16_main_arg2 m outs c),
        (g main_arg3 (by decide)).trans (V16_main_arg3 m outs c),
        (g main_arg4 (by decide)).trans (V16_main_arg4 m outs c),
        (g main_arg5 (by decide)).trans (V16_main_arg5 m outs c),
        (g main_arg6 (by decide)).trans (V16_main_arg6 m outs c),
        (g main_arg7 (by decide)).trans (V16_main_arg7 m outs c),
        (g main_arg8 (by decide)).trans (V16_main_arg8 m outs c),
        (g main_arg9 (by decide)).trans (V16_main_arg9 m outs c),
        (g main_arg10 (by decide)).trans (V16_main_arg10 m outs c),
        (g main_arg11 (by decide)).trans (V16_main_arg11 m outs c),
        (g main_arg12 (by decide)).trans (V16_main_arg12 m outs c),
        (g main_arg13 (by decide)).trans (V16_main_arg13 m outs c),
        (g main_arg14 (by decide)).trans (V16_main_arg14 m outs c),
        (g main_arg15 (by decide)).trans (V16_main_arg15 m outs c)⟩
    · iexact HSI

end Cert.KernelIdeal.Gen

end
-- ==== Proof.KI.Run.lean ====
import proofs.«421459_j2104533975239_3_alg».proof.Proof.KI.Region0
import proofs.«421459_j2104533975239_3_alg».proof.Proof.KI.Region1
import proofs.«421459_j2104533975239_3_alg».proof.Proof.KI.Region2
import proofs.«421459_j2104533975239_3_alg».proof.Proof.KI.Region3
import proofs.«421459_j2104533975239_3_alg».proof.Proof.KI.Region4
import proofs.«421459_j2104533975239_3_alg».proof.Proof.KI.Region5
import proofs.«421459_j2104533975239_3_alg».proof.Proof.KI.RunCond

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section General

variable {p : Fin 6}

/-- A valuation updated at one array of the region agrees with it off the region's arrays. -/
theorem update_rest (V : Valuation τ sig (Elt F)) (wo : Fin (cfgs p).W) (x) (b : Ref sig .tc)
    (hb : b ∉ Finset.univ.image (Pipeline.arrRef (cfgs p).spec)) :
    Function.update V (Pipeline.arrRef (cfgs p).spec wo) x b = V b :=
  Function.update_of_ne (StableHlo.devRef_ne_of_ne fun h => hb (Finset.mem_image.mpr ⟨wo, Finset.mem_univ _, h.symm⟩)) _ _

/-- Only window `wo` is written back, so every array ends as the entry valuation updated at `wo`'s array has it. -/
theorem arrAt_update (kit : Pipeline.LaunchFacts (nD := nD) (τ := τ) cfgs p) {c : Dev nD} (dat : Dat τ (Elt F) Unit ℕ (UR sig nD τ) ℕ (cfgs p) c) (V : Valuation τ sig (Elt F))
    (wo : Fin (cfgs p).W) (hA : ∀ w, dat.A w = V (Pipeline.arrRef (cfgs p).spec w))
    (hio : ∀ w, w ≠ wo → ((cfgs p).win w).isOut = false) (w : Fin (cfgs p).W) :
    dat.arrAt w (cfgs p).N = Function.update V (Pipeline.arrRef (cfgs p).spec wo)
      (Pipeline.withArrays (cfgs p).spec c V (dat.arrAt · (cfgs p).N) (Pipeline.arrRef (cfgs p).spec wo)) (Pipeline.arrRef (cfgs p).spec w) := by
  by_cases h : w = wo
  · subst h; rw [Function.update_self]; exact (Pipeline.withArrays_arr _ kit.win.arr_inj c V (dat.arrAt · (cfgs p).N) w).symm
  · rw [Function.update_of_ne (StableHlo.devRef_ne_of_ne fun e => h (kit.win.arr_inj e)), dat.arrAt_in w (hio w h), hA]

set_option backward.isDefEq.respectTransparency.types false in
/-- Any of the six regions as a segment: from the valuation `V` to `V` updated at the one array the region writes. -/
def regOf (kit : Pipeline.LaunchFacts (nD := nD) (τ := τ) cfgs p) (pd : (p : Fin 6) → (c : Dev nD) → Dat τ (Elt F) Unit ℕ (UR sig nD τ) ℕ (cfgs p) c)
    (V V' : Dev nD → Valuation τ sig (Elt F)) (wo : Fin (cfgs p).W) (hio : ∀ w, w ≠ wo → ((cfgs p).win w).isOut = false)
    (hb : ∀ c, BodyObligation (pd p c) (defs₀ (F := F)) Variants.none () Set.univ)
    (hA : ∀ c w, (pd p c).A w = V c (Pipeline.arrRef (cfgs p).spec w)) (hq : ∀ c w, (pd p c).q w = fullShare)
    (ho : ∀ c t, (pd p c).owed t = 0) (hr : ∀ c, (pd p c).recorded 0 = Set.univ)
    (hV' : ∀ c, V' c = Function.update (V c) (Pipeline.arrRef (cfgs p).spec wo)
      (Pipeline.withArrays (cfgs p).spec c (V c) ((pd p c).arrAt · (cfgs p).N) (Pipeline.arrRef (cfgs p).spec wo)))
    (hin : ∀ c, (Pipeline.ΦA (cfgs p).spec c : sProp 𝕄) ⊢ (pd p c).Φ 0)
    (hout : ∀ c, (pd p c).Φ (Fin.last _) ⊢ (Pipeline.ΦA (cfgs p).spec c : sProp 𝕄)) :
    Pipeline.RegionSeg (pcfgs (F := F)) adm pd () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pd kit.win kit.arr_whole c
      ((pd p c).share_full (hq c)) (fun b => V c b) (hA c)
    rw [Pipeline.unscopedBufs_held] at hsplit
    unfold Pipeline.Dat.owesAt Pipeline.owesWithin Pipeline.prefHeld
    rw [ho c, show (Finset.univ : Finset (Fin 0)) = ∅ from rfl, BI.bigSep_empty]
    iintro ⟨⟨Hub, Hp, HO⟩, -, -⟩
    ihave H := hsplit $$ Hub
    icases H with ⟨Ha, Hrest⟩
    imodintro
    isplitl [Ha]; · iexact Ha
    isplitr; · iempintro
    isplitl [HO]
    · icases HO with ⟨%W, HO⟩; iexists W; isplitr; · ipureintro; exact fun _ _ => Or.inl (hr c ▸ Set.mem_univ _)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c pd ((pd p c).share_full (hq c)) (fun b => V c b) (fun b => V' c b) ((pd p c).arrAt · (cfgs p).N)
      (fun w => by rw [hV' c]; exact arrAt_update kit (pd p c) (V c) wo (hA c) hio w)
      (fun b hb => by rw [hV' c]; exact update_rest (V c) wo _ b hb)
    rw [Pipeline.unscopedBufs_held] at hjoin
    unfold Pipeline.Dat.owesAt Pipeline.owesWithin
    rw [ho c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end General

variable (m : (ℓ : Loc nD τ sig) → Buf (Elt F) ℓ) (ρ : Dev nD → PrngReg)

abbrev En0 : (c : Dev nD) → (b : Ref sig .tc) → Buf (Elt F) ((c : Thread nD τ).loc b) := fun c b => V5 m c b
def U6 (c : Dev nD) : Valuation τ sig (Elt F) :=
  Pipeline.withArrays spec0 c (V5 m c) fun w => (dat0 (En0 m) c).arrAt w cfg0.N
def Y6 (c : Dev nD) : Valuation τ sig (Elt F) := Function.update (V5 m c) main_v29 (U6 m c main_v29)
def Y7 (c : Dev nD) : Valuation τ sig (Elt F) := StableHlo.after hostOps1 (Y6 m c)

abbrev En1 : (c : Dev nD) → (b : Ref sig .tc) → Buf (Elt F) ((c : Thread nD τ).loc b) := fun c b => Y7 m c b
def U8 (c : Dev nD) : Valuation τ sig (Elt F) :=
  Pipeline.withArrays spec1 c (Y7 m c) fun w => (dat1 (En1 m) c).arrAt w cfg1.N
def Y8 (c : Dev nD) : Valuation τ sig (Elt F) := Function.update (Y7 m c) main_v42 (U8 m c main_v42)
def Y9 (c : Dev nD) : Valuation τ sig (Elt F) := StableHlo.after hostOps2 (Y8 m c)

abbrev En2 : (c : Dev nD) → (b : Ref sig .tc) → Buf (Elt F) ((c : Thread nD τ).loc b) := fun c b => Y9 m c b
def U10 (c : Dev nD) : Valuation τ sig (Elt F) :=
  Pipeline.withArrays spec2 c (Y9 m c) fun w => (dat2 (En2 m) c).arrAt w cfg2.N
def Y10 (c : Dev nD) : Valuation τ sig (Elt F) := Function.update (Y9 m c) main_v55 (U10 m c main_v55)
def Y11 (c : Dev nD) : Valuation τ sig (Elt F) := StableHlo.after hostOps3 (Y10 m c)

abbrev En3 : (c : Dev nD) → (b : Ref sig .tc) → Buf (Elt F) ((c : Thread nD τ).loc b) := fun c b => Y11 m c b
def U12 (c : Dev nD) : Valuation τ sig (Elt F) :=
  Pipeline.withArrays spec3 c (Y11 m c) fun w => (dat3 (En3 m) c).arrAt w cfg3.N
def Y12 (c : Dev nD) : Valuation τ sig (Elt F) := Function.update (Y11 m c) main_v68 (U12 m c main_v68)
def Y13 (c : Dev nD) : Valuation τ sig (Elt F) := StableHlo.after hostOps4 (Y12 m c)

abbrev En4 : (c : Dev nD) → (b : Ref sig .tc) → Buf (Elt F) ((c : Thread nD τ).loc b) := fun c b => Y13 m c b
def U14 (c : Dev nD) : Valuation τ sig (Elt F) :=
  Pipeline.withArrays spec4 c (Y13 m c) fun w => (dat4 (En4 m) c).arrAt w cfg4.N
def Y14 (c : Dev nD) : Valuation τ sig (Elt F) := Function.update (Y13 m c) main_v81 (U14 m c main_v81)
def Y15 (c : Dev nD) : Valuation τ sig (Elt F) := StableHlo.after hostOps5 (Y14 m c)

abbrev En5 : (c : Dev nD) → (b : Ref sig .tc) → Buf (Elt F) ((c : Thread nD τ).loc b) := fun c b => Y15 m c b
def U16 (c : Dev nD) : Valuation τ sig (Elt F) :=
  Pipeline.withArrays spec5 c (Y15 m c) fun w => (dat5 (En5 m) c).arrAt w cfg5.N
def Y16 (c : Dev nD) : Valuation τ sig (Elt F) := Function.update (Y15 m c) main_v96 (U16 m c main_v96)

def outsF : Outs (F := F) := fun J r c =>
  match J with
  | 6 => U6 m c r
  | 8 => U8 m c r
  | 10 => U10 m c r
  | 12 => U12 m c r
  | 14 => U14 m c r
  | _ => U16 m c r

theorem Y6_eq (c : Dev nD) : V6 m (outsF m) c = Y6 m c := rfl
theorem Y7_eq (c : Dev nD) : V7 m (outsF m) c = Y7 m c := congrArg (StableHlo.after hostOps1) (Y6_eq m c)
theorem Y8_eq (c : Dev nD) : V8 m (outsF m) c = Y8 m c := by
  show Function.update (V7 m (outsF m) c) main_v42 (outsF m 8 main_v42 c) = _; rw [Y7_eq]; rfl
theorem Y9_eq (c : Dev nD) : V9 m (outsF m) c = Y9 m c := congrArg (StableHlo.after hostOps2) (Y8_eq m c)
theorem Y10_eq (c : Dev nD) : V10 m (outsF m) c = Y10 m c := by
  show Function.update (V9 m (outsF m) c) main_v55 (outsF m 10 main_v55 c) = _; rw [Y9_eq]; rfl
theorem Y11_eq (c : Dev nD) : V11 m (outsF m) c = Y11 m c := congrArg (StableHlo.after hostOps3) (Y10_eq m c)
theorem Y12_eq (c : Dev nD) : V12 m (outsF m) c = Y12 m c := by
  show Function.update (V11 m (outsF m) c) main_v68 (outsF m 12 main_v68 c) = _; rw [Y11_eq]; rfl
theorem Y13_eq (c : Dev nD) : V13 m (outsF m) c = Y13 m c := congrArg (StableHlo.after hostOps4) (Y12_eq m c)
theorem Y14_eq (c : Dev nD) : V14 m (outsF m) c = Y14 m c := by
  show Function.update (V13 m (outsF m) c) main_v81 (outsF m 14 main_v81 c) = _; rw [Y13_eq]; rfl
theorem Y15_eq (c : Dev nD) : V15 m (outsF m) c = Y15 m c := congrArg (StableHlo.after hostOps5) (Y14_eq m c)
theorem Y16_eq (c : Dev nD) : V16 m (outsF m) c = Y16 m c := by
  show Function.update (V15 m (outsF m) c) main_v96 (outsF m 16 main_v96 c) = _; rw [Y15_eq]; rfl

attribute [irreducible] Y7 Y9 Y11 Y13 Y15

theorem U6_arr (c : Dev nD) (w : Fin cfg0.W) :
    U6 m c (Proc.devRef .tc (Pipeline.arrRef spec0 w)) = (dat0 (En0 m) c).arrAt w cfg0.N :=
  Pipeline.withArrays_arr spec0 launch0.win.arr_inj c _ _ w
theorem Y6_self (c : Dev nD) : Y6 m c main_v29 = U6 m c main_v29 := Function.update_self ..
theorem U8_arr (c : Dev nD) (w : Fin cfg1.W) :
    U8 m c (Proc.devRef .tc (Pipeline.arrRef spec1 w)) = (dat1 (En1 m) c).arrAt w cfg1.N :=
  Pipeline.withArrays_arr spec1 launch1.win.arr_inj c _ _ w
theorem Y8_self (c : Dev nD) : Y8 m c main_v42 = U8 m c main_v42 := Function.update_self ..
theorem U10_arr (c : Dev nD) (w : Fin cfg2.W) :
    U10 m c (Proc.devRef .tc (Pipeline.arrRef spec2 w)) = (dat2 (En2 m) c).arrAt w cfg2.N :=
  Pipeline.withArrays_arr spec2 launch2.win.arr_inj c _ _ w
theorem Y10_self (c : Dev nD) : Y10 m c main_v55 = U10 m c main_v55 := Function.update_self ..
theorem U12_arr (c : Dev nD) (w : Fin cfg3.W) :
    U12 m c (Proc.devRef .tc (Pipeline.arrRef spec3 w)) = (dat3 (En3 m) c).arrAt w cfg3.N :=
  Pipeline.withArrays_arr spec3 launch3.win.arr_inj c _ _ w
theorem Y12_self (c : Dev nD) : Y12 m c main_v68 = U12 m c main_v68 := Function.update_self ..
theorem U14_arr (c : Dev nD) (w : Fin cfg4.W) :
    U14 m c (Proc.devRef .tc (Pipeline.arrRef spec4 w)) = (dat4 (En4 m) c).arrAt w cfg4.N :=
  Pipeline.withArrays_arr spec4 launch4.win.arr_inj c _ _ w
theorem Y14_self (c : Dev nD) : Y14 m c main_v81 = U14 m c main_v81 := Function.update_self ..

def pdats : (p : Fin 6) → (c : Dev nD) → Dat τ (Elt F) Unit ℕ (UR sig nD τ) ℕ (cfgs p) c
  | ⟨0, _⟩ => dat0 (En0 m)
  | ⟨1, _⟩ => dat1 (En1 m)
  | ⟨2, _⟩ => dat2 (En2 m)
  | ⟨3, _⟩ => dat3 (En3 m)
  | ⟨4, _⟩ => dat4 (En4 m)
  | ⟨5, _⟩ => dat5 (En5 m)

def reg0 : Pipeline.RegionSeg (pcfgs (F := F)) adm (pdats m) () defs₀ 𝒱₀ L lv 0 :=
  regOf launch0 (pdats m) (V5 m) (V6 m (outsF m)) (2 : Fin 3) (by decide) (body_obligation0 (En0 m))
    (fun _ _ => rfl) (fun _ _ => rfl) (fun _ _ => rfl) (fun _ => rfl) (fun _ => rfl) (fun _ => .rfl) (fun _ => .rfl)
def reg1 : Pipeline.RegionSeg (pcfgs (F := F)) adm (pdats m) () defs₀ 𝒱₀ L lv 1 :=
  regOf launch1 (pdats m) (V7 m (outsF m)) (V8 m (outsF m)) (4 : Fin 5) (by decide) (body_obligation1 (En1 m))
    (fun c _ => (congrFun (Y7_eq m c) _).symm) (fun _ _ => rfl) (fun _ _ => rfl) (fun _ => rfl) (fun c => by rw [Y8_eq m c, Y7_eq m c]; rfl) (fun _ => .rfl) (fun _ => .rfl)
def reg2 : Pipeline.RegionSeg (pcfgs (F := F)) adm (pdats m) () defs₀ 𝒱₀ L lv 2 :=
  regOf launch2 (pdats m) (V9 m (outsF m)) (V10 m (outsF m)) (4 : Fin 5) (by decide) (body_obligation2 (En2 m))
    (fun c _ => (congrFun (Y9_eq m c) _).symm) (fun _ _ => rfl) (fun _ _ => rfl) (fun _ => rfl) (fun c => by rw [Y10_eq m c, Y9_eq m c]; rfl) (fun _ => .rfl) (fun _ => .rfl)
def reg3 : Pipeline.RegionSeg (pcfgs (F := F)) adm (pdats m) () defs₀ 𝒱₀ L lv 3 :=
  regOf launch3 (pdats m) (V11 m (outsF m)) (V12 m (outsF m)) (4 : Fin 5) (by decide) (body_obligation3 (En3 m))
    (fun c _ => (congrFun (Y11_eq m c) _).symm) (fun _ _ => rfl) (fun _ _ => rfl) (fun _ => rfl) (fun c => by rw [Y12_eq m c, Y11_eq m c]; rfl) (fun _ => .rfl) (fun _ => .rfl)
def reg4 : Pipeline.RegionSeg (pcfgs (F := F)) adm (pdats m) () defs₀ 𝒱₀ L lv 4 :=
  regOf launch4 (pdats m) (V13 m (outsF m)) (V14 m (outsF m)) (4 : Fin 5) (by decide) (body_obligation4 (En4 m))
    (fun c _ => (congrFun (Y13_eq m c) _).symm) (fun _ _ => rfl) (fun _ _ => rfl) (fun _ => rfl) (fun c => by rw [Y14_eq m c, Y13_eq m c]; rfl) (fun _ => .rfl) (fun _ => .rfl)
def reg5 : Pipeline.RegionSeg (pcfgs (F := F)) adm (pdats m) () defs₀ 𝒱₀ L lv 5 :=
  regOf launch5 (pdats m) (V15 m (outsF m)) (V16 m (outsF m)) (8 : Fin 9) (by decide) (body_obligation5 (En5 m))
    (fun c _ => (congrFun (Y15_eq m c) _).symm) (fun _ _ => rfl) (fun _ _ => rfl) (fun _ => rfl) (fun c => by rw [Y16_eq m c, Y15_eq m c]; rfl) (hin5 (En5 m)) (hout5 (En5 m))

set_option backward.isDefEq.respectTransparency.types false in
/-- The program terminates on every weakly fair execution; its result array ends at what region 5 leaves, its arguments as launched. -/
theorem run_main : θ_run defs (onTc (τ := τ) (main (F := F))) ⟨m, fun _ => 0, ρ⟩ (fun r => ∀ c : Dev nD,
      r.2.mem ((c.tc : Thread nD τ).loc main_v96) = outsF m 16 main_v96 c ∧ argsKept m r.2 c) :=
  run_cond (m := m) (EP := emb₁) (ι := ()) (𝒱₀ := 𝒱₀) (L := L) (lv := lv) (hL := fun _ _ => rfl) (ρ := ρ) (outs := outsF m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (R0 := reg0 m) (R1 := reg1 m) (R2 := reg2 m) (R3 := reg3 m) (R4 := reg4 m) (R5 := reg5 m)
    (hch := fun c => ⟨.rfl, .rfl, .rfl, .rfl, .rfl, .rfl, .rfl, .rfl, .rfl, .rfl, .rfl, .rfl, .rfl, .rfl, .rfl, .rfl,
      sep_mono .rfl (by iintro ⟨-, HO⟩; iexact HO)⟩)

theorem outsF_result (c : Dev nD) : outsF m 16 main_v96 c = (dat5 (En5 m) c).arrAt 8 cfg5.N :=
  Pipeline.withArrays_arr spec5 launch5.win.arr_inj c (Y15 m c) (fun w => (dat5 (En5 m) c).arrAt w cfg5.N) 8

theorem frame_main : θ_run defs (onTc (τ := τ) (main (F := F))) ⟨m, fun _ => 0, ρ⟩ (fun r => ∀ c : Dev nD, argsKept m r.2 c) :=
  (θ_run defs _ _).mono (fun _ h c => (h c).2) (run_main m ρ)

end Cert.KernelIdeal.Gen

end
-- ==== Proof.KI.Stages.lean ====
import proofs.«421459_j2104533975239_3_alg».proof.Proof.KI.Run
import Idealize.ShloMosaic.Lib.StableHlo.Run

set_option maxRecDepth 16384

noncomputable section

namespace Cert.KernelIdeal.Stage

open Cert.KernelIdeal Cert.KernelIdeal.Gen
open Idealize.ShloMosaic Idealize.ShloMosaic.TcCoe Idealize.ShloMosaic.StableHlo

variable {F : FTy → Type} [FloatOps F]

def idxK (x : (⟨S1600000, .i32⟩ : BufTy).Contents (Elt F)) : (⟨S1600000x1, .i32⟩ : BufTy).Contents (Elt F) :=
  broadcastInDim S1600000x1 ![0] bcast_S1600000_S1600000x1_0
    (select (cmpi CmpIPredicate.slt x (broadcastInDim S1600000 ![] bcast_S_S1600000 (constantI S_ 32 0#32)))
      (addi x (broadcastInDim S1600000 ![] bcast_S_S1600000 (constantI S_ 32 100000#32))) x)

def aggK (h : (⟨S100000x128, .bf16⟩ : BufTy).Contents (Elt F)) (x1 x2 : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x2)
    (extf .f32 (Host.gather gather_S100000x128_S1600000x1_S1600000x128_1_0_n_n_0_1_1128 h (idxK x1)) bitsLt_bf16_f32)

def normK (x : (⟨S1600000, .i32⟩ : BufTy).Contents (Elt F)) : (⟨S100000x1, .f32⟩ : BufTy).Contents (Elt F) :=
  broadcastInDim S100000x1 ![0] bcast_S100000_S100000x1_0
    (Host.rsqrt (maximumf (broadcastInDim S100000 ![] bcast_S_S100000 (constant S_ .f32 0x3F800000#32))
      (Host.scatterAdd scatter_S100000_S1600000x1_S1600000_n_0_0_1
        (broadcastInDim S100000 ![] bcast_S_S100000 (constant S_ .f32 0x00000000#32)) (idxK x)
        (broadcastInDim S1600000 ![] bcast_S_S1600000 (constant S_ .f32 0x3F800000#32)))))

def normsK (x1 x2 : (⟨S1600000, .i32⟩ : BufTy).Contents (Elt F)) : (⟨S100000x2, .f32⟩ : BufTy).Contents (Elt F) :=
  concatenate S100000x2 1 [⟨S100000x1, normK x1⟩, ⟨S100000x1, normK x2⟩] concatenates_S100000x1_S100000x1_S100000x2_d1

def cntK (x3 : (⟨S100000, .i32⟩ : BufTy).Contents (Elt F)) : (⟨S64x1, .f32⟩ : BufTy).Contents (Elt F) :=
  fun i => shapeCast S64x1 (Host.scatterAdd scatter_S64_S100000x1_S100000_n_0_0_1
    (broadcastInDim S64 ![] bcast_S_S64 (constant S_ .f32 0x00000000#32))
    (broadcastInDim S100000x1 ![0] bcast_S100000_S100000x1_0 x3)
    (broadcastInDim S100000 ![] bcast_S_S100000 (constant S_ .f32 0x3F800000#32))) shapeCasts_S64_S64x1 i

def rowK (b : (⟨S128, .f32⟩ : BufTy).Contents (Elt F)) : (⟨S1x128, .f32⟩ : BufTy).Contents (Elt F) :=
  fun i => shapeCast S1x128 b shapeCasts_S128_S1x128 i
def colK (x3 : (⟨S100000, .i32⟩ : BufTy).Contents (Elt F)) : (⟨S100000x1, .i32⟩ : BufTy).Contents (Elt F) :=
  fun i => shapeCast S100000x1 x3 shapeCasts_S100000_S100000x1 i
def oneK (b : (⟨S1, .f32⟩ : BufTy).Contents (Elt F)) : (⟨S1x1, .f32⟩ : BufTy).Contents (Elt F) :=
  fun i => shapeCast S1x1 b shapeCasts_S1_S1x1 i

variable (m : (ℓ : Loc nD τ sig) → Buf (Elt F) ℓ) (c : Dev nD)

theorem v5_v20 : V5 m c main_v20 = normK (m ((c : Thread nD τ).loc main_arg1)) := by
  after_results_simp
  rfl
theorem v5_v23 : V5 m c main_v23 = normsK (m ((c : Thread nD τ).loc main_arg1)) (m ((c : Thread nD τ).loc main_arg2)) := by
  after_results_simp
  rfl
theorem v5_v28 : V5 m c main_v28 = cntK (m ((c : Thread nD τ).loc main_arg3)) := by
  after_results_simp
  rfl

variable (r : Ref sig .tc)

abbrev Early : Prop :=
  r ∉ hostOps0_W ∧ r ∉ hostOps0_1_W ∧ r ∉ hostOps0_2_W ∧ r ∉ hostOps0_3_W ∧ r ∉ hostOps0_4_W

abbrev Late : Prop :=
  r ∉ [main_v29] ∧ r ∉ hostOps1_W ∧ r ∉ [main_v42] ∧ r ∉ hostOps2_W ∧ r ∉ [main_v55] ∧ r ∉ hostOps3_W ∧ r ∉ [main_v68] ∧ r ∉ hostOps4_W ∧ r ∉ [main_v81] ∧ r ∉ hostOps5_W

/-- A buffer no host operation before the first region writes still holds the program's argument. -/
theorem early (h : Early r) : V5 m c r = m ((c : Thread nD τ).loc r) :=
  (V5_of m c r h.2.2.2.2).trans <| (V4_of m c r h.2.2.2.1).trans <| (V3_of m c r h.2.2.1).trans <| (V2_of m c r h.2.1).trans <| V1_of m c r h.1

/-- The buffer `r` holds `x` at every stage after the first region. -/
structure Kept (x : Buf (Elt F) ((c : Thread nD τ).loc r)) : Prop where
  y6 : Y6 m c r = x
  y7 : Y7 m c r = x
  y8 : Y8 m c r = x
  y9 : Y9 m c r = x
  y10 : Y10 m c r = x
  y11 : Y11 m c r = x
  y12 : Y12 m c r = x
  y13 : Y13 m c r = x
  y14 : Y14 m c r = x
  y15 : Y15 m c r = x

/-- A buffer neither a region nor a later host operation writes keeps what it held before the first region. -/
theorem kept {x : Buf (Elt F) ((c : Thread nD τ).loc r)} (hx : V5 m c r = x) (h : Late r) : Kept m c r x := by
  obtain ⟨h6, h7, h8, h9, h10, h11, h12, h13, h14, h15⟩ := h
  have e6 := (V6_of m (outsF m) c r h6).trans hx
  have e7 := (V7_of m (outsF m) c r h7).trans e6
  have e8 := (V8_of m (outsF m) c r h8).trans e7
  have e9 := (V9_of m (outsF m) c r h9).trans e8
  have e10 := (V10_of m (outsF m) c r h10).trans e9
  have e11 := (V11_of m (outsF m) c r h11).trans e10
  have e12 := (V12_of m (outsF m) c r h12).trans e11
  have e13 := (V13_of m (outsF m) c r h13).trans e12
  have e14 := (V14_of m (outsF m) c r h14).trans e13
  have e15 := (V15_of m (outsF m) c r h15).trans e14
  exact ⟨Y6_eq m c ▸ e6, Y7_eq m c ▸ e7, Y8_eq m c ▸ e8, Y9_eq m c ▸ e9, Y10_eq m c ▸ e10, Y11_eq m c ▸ e11, Y12_eq m c ▸ e12, Y13_eq m c ▸ e13, Y14_eq m c ▸ e14, Y15_eq m c ▸ e15⟩

theorem arg (h : Early r ∧ Late r) : Kept m c r (m ((c : Thread nD τ).loc r)) :=
  kept m c r (early m c r h.1) h.2

theorem carry5_main_arg0 : V5 m c main_arg0 = m ((c : Thread nD τ).loc main_arg0) := early m c _ (by decide)

theorem carry7_main_arg4 : Y7 m c main_arg4 = m ((c : Thread nD τ).loc main_arg4) := (arg m c _ (by decide)).y7
theorem carry7_main_v23 : Y7 m c main_v23 = V5 m c main_v23 := (kept m c _ rfl (by decide)).y7
theorem y7_agg : Y7 m c main_v40 = aggK (Y6 m c main_v29) (m ((c : Thread nD τ).loc main_arg1)) (m ((c : Thread nD τ).loc main_arg2)) := by
  rw [← (arg m c main_arg1 (by decide)).y6, ← (arg m c main_arg2 (by decide)).y6]
  unfold Y7
  after_results_simp
  rfl
theorem y7_row : Y7 m c main_v41 = rowK (m ((c : Thread nD τ).loc main_arg5)) := by
  rw [← (arg m c main_arg5 (by decide)).y6]
  unfold Y7
  after_results_simp
  rfl

theorem carry9_main_arg6 : Y9 m c main_arg6 = m ((c : Thread nD τ).loc main_arg6) := (arg m c _ (by decide)).y9
theorem carry9_main_v23 : Y9 m c main_v23 = V5 m c main_v23 := (kept m c _ rfl (by decide)).y9
theorem y9_agg : Y9 m c main_v53 = aggK (Y8 m c main_v42) (m ((c : Thread nD τ).loc main_arg1)) (m ((c : Thread nD τ).loc main_arg2)) := by
  rw [← (arg m c main_arg1 (by decide)).y8, ← (arg m c main_arg2 (by decide)).y8]
  unfold Y9
  after_results_simp
  rfl
theorem y9_row : Y9 m c main_v54 = rowK (m ((c : Thread nD τ).loc main_arg7)) := by
  rw [← (arg m c main_arg7 (by decide)).y8]
  unfold Y9
  after_results_simp
  rfl

theorem carry11_main_arg8 : Y11 m c main_arg8 = m ((c : Thread nD τ).loc main_arg8) := (arg m c _ (by decide)).y11
theorem carry11_main_v23 : Y11 m c main_v23 = V5 m c main_v23 := (kept m c _ rfl (by decide)).y11
theorem y11_agg : Y11 m c main_v66 = aggK (Y10 m c main_v55) (m ((c : Thread nD τ).loc main_arg1)) (m ((c : Thread nD τ).loc main_arg2)) := by
  rw [← (arg m c main_arg1 (by decide)).y10, ← (arg m c main_arg2 (by decide)).y10]
  unfold Y11
  after_results_simp
  rfl
theorem y11_row : Y11 m c main_v67 = rowK (m ((c : Thread nD τ).loc main_arg9)) := by
  rw [← (arg m c main_arg9 (by decide)).y10]
  unfold Y11
  after_results_simp
  rfl

theorem carry13_main_arg10 : Y13 m c main_arg10 = m ((c : Thread nD τ).loc main_arg10) := (arg m c _ (by decide)).y13
theorem carry13_main_v23 : Y13 m c main_v23 = V5 m c main_v23 := (kept m c _ rfl (by decide)).y13
theorem y13_agg : Y13 m c main_v79 = aggK (Y12 m c main_v68) (m ((c : Thread nD τ).loc main_arg1)) (m ((c : Thread nD τ).loc main_arg2)) := by
  rw [← (arg m c main_arg1 (by decide)).y12, ← (arg m c main_arg2 (by decide)).y12]
  unfold Y13
  after_results_simp
  rfl
theorem y13_row : Y13 m c main_v80 = rowK (m ((c : Thread nD τ).loc main_arg11)) := by
  rw [← (arg m c main_arg11 (by decide)).y12]
  unfold Y13
  after_results_simp
  rfl

theorem carry15_main_arg12 : Y15 m c main_arg12 = m ((c : Thread nD τ).loc main_arg12) := (arg m c _ (by decide)).y15
theorem carry15_main_v23 : Y15 m c main_v23 = V5 m c main_v23 := (kept m c _ rfl (by decide)).y15
theorem y15_agg : Y15 m c main_v92 = aggK (Y14 m c main_v81) (m ((c : Thread nD τ).loc main_arg1)) (m ((c : Thread nD τ).loc main_arg2)) := by
  rw [← (arg m c main_arg1 (by decide)).y14, ← (arg m c main_arg2 (by decide)).y14]
  unfold Y15
  after_results_simp
  rfl
theorem y15_row : Y15 m c main_v93 = rowK (m ((c : Thread nD τ).loc main_arg13)) := by
  rw [← (arg m c main_arg13 (by decide)).y14]
  unfold Y15
  after_results_simp
  rfl

theorem carry15_main_arg14 : Y15 m c main_arg14 = m ((c : Thread nD τ).loc main_arg14) := (arg m c _ (by decide)).y15
theorem carry15_main_v28 : Y15 m c main_v28 = V5 m c main_v28 := (kept m c _ rfl (by decide)).y15
theorem y15_col : Y15 m c main_v94 = colK (m ((c : Thread nD τ).loc main_arg3)) := by
  rw [← (arg m c main_arg3 (by decide)).y14]
  unfold Y15
  after_results_simp
  rfl
theorem y15_one : Y15 m c main_v95 = oneK (m ((c : Thread nD τ).loc main_arg15)) := by
  rw [← (arg m c main_arg15 (by decide)).y14]
  unfold Y15
  after_results_simp
  rfl

end Cert.KernelIdeal.Stage

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Arr (a b : Nat) : Type := (⟨2, ![a, b]⟩ : Shape).Idx → EReal

-- Each row times its entry of a one-column array.
def scaleRows {n d : Nat} (x : Arr n d) (s : Arr n 1) : Arr n d :=
  fun i => x i * s (ix2 (i 0) (0 : Fin 1))

-- A dense layer without the final rescale: (n, d) ↦ ∑ j, (a(n, j) · ν(n, 1)) · w(j, d) + β(d).
def dense {n : Nat} (a : Arr n 128) (ν : Arr n 2) (w : Arr 128 128) (β : Arr 1 128) : Arr n 128 :=
  fun i => (∑ j : Fin 128, (a (ix2 (i 0) j) * ν (ix2 (i 0) (1 : Fin 2))) * w (ix2 j (i 1))) + β (ix2 (0 : Fin 1) (i 1))

-- The dense layer followed by the rescale by ν(n, 0).
def layer {n : Nat} (a : Arr n 128) (ν : Arr n 2) (w : Arr 128 128) (β : Arr 1 128) : Arr n 128 :=
  fun i => dense a ν w β i * ν (ix2 (i 0) (0 : Fin 2))

-- Rows added up by group: S(g, d) = ∑ n, [γ(n) = g] · y(n, d).
def pooled {n G : Nat} (γ : IVec ⟨2, ![n, 1]⟩ 32) (y : Arr n 128) : Arr G 128 :=
  fun i => ∑ e : Fin n, if (γ (ix2 e (0 : Fin 1))).toInt = ((i 0).val : ℤ) then y (ix2 e (i 1)) else 0

-- The logistic function of ∑ d, (S(g, d) / max(1, cnt(g))) · φ(d) + φ₀.
def readout {G : Nat} (S : Arr G 128) (cnt : Arr G 1) (φ : Arr 1 128) (φ₀ : Arr 1 1) : Arr G 1 :=
  fun i =>
    Ideal.div 1 (1 + Ideal.exp (-( (∑ d : Fin 128, Ideal.div (S (ix2 (i 0) d)) (max 1 (cnt (ix2 (i 0) (0 : Fin 1)))) * φ (ix2 (0 : Fin 1) d))
      + φ₀ (ix2 (0 : Fin 1) (0 : Fin 1)))))

end Cert.Spec

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

-- Row-major position i of the vector is position (i, 0) of the one-column array.
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

-- A one-column array laid along b columns keeps its row's entry.
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

-- A sum reduction over the second axis from the zero word is the row's sum.
theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src _ h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

end Cert.Keepdims

end
-- ==== Proof.KI.Value0.lean ====
import proofs.«421459_j2104533975239_3_alg».proof.Proof.KI.Region0
import proofs.«421459_j2104533975239_3_alg».proof.Proof.Spec
import proofs.«421459_j2104533975239_3_alg».proof.Proof.LibKeepdims

namespace Cert.KernelIdeal.Value

open Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- Row r of the array is in the block of 4000 rows at block index (r / 4000, 0): the 25 blocks tile the rows. -/
theorem cover_rows {N : Nat} (hN : N = 25) (idx : Fin N → Fin 2 → Nat) {P : Fin N → Prop}
    (hidx : ∀ t, idx t 0 = t.val ∧ idx t 1 = 0 ∧ P t) (i : S100000x128.Idx) : ∃ t : Fin N, ∀ a : Fin 2, idx t a * S4000x128.size a ≤ (i a).val
      ∧ (i a).val < idx t a * S4000x128.size a + S4000x128.size a := by
  have hi0 : (i 0).val < 100000 := (i 0).isLt
  have hi1 : (i 1).val < 128 := (i 1).isLt
  have ht : (i 0).val / 4000 < N := by omega
  obtain ⟨e0, e1, -⟩ := hidx ⟨_, ht⟩
  have e0' : idx ⟨_, ht⟩ 0 = (i 0).val / 4000 := e0
  refine ⟨⟨_, ht⟩, fun a => ?_⟩
  match a with
  | ⟨0, _⟩ => show idx ⟨_, ht⟩ 0 * 4000 ≤ (i 0).val ∧ (i 0).val < idx ⟨_, ht⟩ 0 * 4000 + 4000; omega
  | ⟨1, _⟩ => show idx ⟨_, ht⟩ 1 * 128 ≤ (i 1).val ∧ (i 1).val < idx ⟨_, ht⟩ 1 * 128 + 128; omega

/-- An index between a unit-stride rectangle's bounds on every axis is under the rectangle's slice of the whole array. -/
theorem mem_slice_whole_unit (b : Ref sig .tc) {off size : Fin b.ty.shape.rank → Nat} {inb} {i : b.ty.shape.Idx}
    (h : ∀ a, off a ≤ (i a).val ∧ (i a).val < off a + size a) :
    i ∈ ((View.whole b).slice (Rect.unit off size inb)).set := by
  rw [View.set_slice_whole]; exact Rect.mem_set_unit.mpr h

theorem rescale0_point (x0 : Vec Ideal S4000x128 .f32) (x1 : Vec Ideal S4000x1 .f32)
    (a0 : Cert.Spec.Arr 100000 128) (a1 : Cert.Spec.Arr 100000 1) (j : S4000x128.Idx) (i : S100000x128.Idx)
    (h0 : x0 j = a0 i) (h1 : x1 (ix2 (j 0) (0 : Fin 1)) = a1 (ix2 (i 0) (0 : Fin 1))) :
    (k0_pay1 x0 x1 : S4000x128.Idx → EReal) j = Cert.Spec.scaleRows a0 a1 i := by
  obtain ⟨p, q, rfl⟩ : ∃ (p : Fin 4000) (q : Fin 128), j = ix2 p q := ⟨j 0, j 1, eq_ix2 j⟩
  unfold k0_pay1
  rw [truncf_apply, mulf_apply, shapeCast_self, Cert.Keepdims.broadcastTo_a1_ab_apply, h0]
  unfold Cert.Spec.scaleRows
  exact congrArg (a0 i * ·) h1

theorem index_facts0 : ∀ t : Fin grid0.N, win0_2.index t (0 : Fin 2) = t.val ∧ win0_2.index t (1 : Fin 2) = 0
    ∧ win0_0.index t (0 : Fin 2) = t.val ∧ win0_0.index t (1 : Fin 2) = 0
    ∧ win0_1.index t (0 : Fin 2) = t.val ∧ win0_1.index t (1 : Fin 2) = 0 := by
  decide +kernel

theorem flushed0_eq (c : Dev nD) (t : Fin cfg0.N) :
    (dat0 (F := Ideal) V c).flushed 2 t
      = ((cfg0.win 2).blk t).view.read (Elt Ideal) (Cert.Spec.scaleRows (V c main_arg0) (V c main_v20)) := by
  show (cfg0.win 2).cut (grid0.coords t) ((dat0 (F := Ideal) V c).after 2 t) = _
  rw [after0_2]
  unfold out0_2
  rw [View.canon_unit_zero zero_offsets]
  simp only [View.ld_unit_zero (S := S4000x128) zero_offsets, View.ld_unit_zero (S := S4000x1) zero_offsets]
  obtain ⟨e20, e21, e00, e01, e10, e11⟩ := index_facts0 t
  funext j
  refine rescale0_point _ _ (V c main_arg0) (V c main_v20) j (((cfg0.win 2).blk t).view.emb j)
    (congrArg (V c main_arg0) (funext fun a => Fin.ext ?_)) (congrArg (V c main_v20) (funext fun a => Fin.ext ?_))
  · match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * (j 1).val = win0_2.index t (1 : Fin 2) * 128 + 1 * (j 1).val; omega
  · match a with
    | ⟨0, _⟩ => show win0_1.index t (0 : Fin 2) * 4000 + 1 * (j 0).val = win0_2.index t (0 : Fin 2) * 4000 + 1 * (j 0).val; omega
    | ⟨1, _⟩ => show win0_1.index t (1 : Fin 2) * 1 + 1 * 0 = 0; omega

theorem final0 (c : Dev nD) :
    ((dat0 (F := Ideal) V c).arrAt 2 cfg0.N : S100000x128.Idx → EReal) = Cert.Spec.scaleRows (V c main_arg0) (V c main_v20) :=
  (dat0 (F := Ideal) V c).arrAt_eq_of_cover 2 _ (fun t _ => flushed0_eq V c t) fun i =>
    (cover_rows N_0 win0_2.index index_facts0 i).imp fun t h =>
      ⟨flush0_2 t, mem_slice_whole_unit main_v29 h⟩

end Cert.KernelIdeal.Value
-- ==== Proof.KI.Value1.lean ====
import proofs.«421459_j2104533975239_3_alg».proof.Proof.KI.Region1
import proofs.«421459_j2104533975239_3_alg».proof.Proof.KI.Value0
import Idealize.ShloMosaic.Lib.StackMember
import Idealize.ShloMosaic.Lib.KernelVsHost

namespace Cert.KernelIdeal.Value

open Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- Into a zero accumulator the body's product is the plain sum over the shared axis. -/
theorem product_k1_pay1 (l : S4000x128.Idx → EReal) (w : S128x128.Idx → EReal) (p : Fin 4000) (q : Fin 128) :
    matmul (F := Ideal) (φ₁ := .bf16) (φ₂ := .bf16) dot_S4000x128_S128x128_S4000x128_1_0_0_1_n_n none l w
        (constant S4000x128 .f32 0x00000000#32) (ix2 p q)
      = ∑ k : Fin 128, l (ix2 p k) * w (ix2 k q) := by
  rw [matmul_zero_eq_dotGeneral]; exact StackMember.dotGeneral_plain_apply none l w p q

/-- Column u of a two-column array, cut out as a one-column array. -/
theorem col_k1_pay1 {α : Type} (v : S4000x2.Idx → α) {c : Nat} (h : S4000x2.Slices ![0, c] S4000x1) (u : Fin 2) (hu : u.val = c)
    (p : Fin 4000) : extractStridedSlice S4000x1 ![0, c] v h (ix2 p (0 : Fin 1)) = v (ix2 p u) :=
  extractStridedSlice_apply ![0, c] v h (ix2 p (0 : Fin 1)) (ix2 p u) fun a => by
    match a with
    | ⟨0, _⟩ => show p.val = 0 + p.val; omega
    | ⟨1, _⟩ => show u.val = c + 0; omega

/-- On rows of the arrays and the whole weights and bias, the body's entry is the layer's: ((row · ν₁) · w + β) · ν₀. -/
theorem k1_pay1_point (x0 : Vec Ideal S4000x128 .f32) (x1 : Vec Ideal S4000x2 .f32) (x2 : Vec Ideal S128x128 .f32)
    (x3 : Vec Ideal S1x128 .f32) (a : Cert.Spec.Arr 100000 128) (ν : Cert.Spec.Arr 100000 2) (w : Cert.Spec.Arr 128 128)
    (β : Cert.Spec.Arr 1 128) (j : S4000x128.Idx) (i : S100000x128.Idx) (hq : (i 1).val = (j 1).val)
    (h0 : ∀ k : Fin 128, x0 (ix2 (j 0) k) = a (ix2 (i 0) k)) (h1 : ∀ u : Fin 2, x1 (ix2 (j 0) u) = ν (ix2 (i 0) u))
    (h2 : x2 = w) (h3 : x3 = β) :
    (k1_pay1 x0 x1 x2 x3 : S4000x128.Idx → EReal) j = Cert.Spec.layer a ν w β i := by
  obtain ⟨p, q, rfl⟩ : ∃ (p : Fin 4000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hq
  subst h2 h3
  have e0 : ∀ k : Fin 128, x0 (ix2 p k) = a (ix2 r k) := h0
  have e1 : ∀ u : Fin 2, x1 (ix2 p u) = ν (ix2 r u) := h1
  unfold k1_pay1
  simp only [shapeCast_self]
  rw [truncf_apply, mulf_apply, addf_apply, product_k1_pay1, broadcastTo_1b_ab_apply,
    Cert.Keepdims.broadcastTo_a1_ab_apply, col_k1_pay1 (c := 0) _ _ 0 rfl, e1 0]
  show _ = ((∑ k : Fin 128, (a (ix2 r k) * ν (ix2 r (1 : Fin 2))) * x2 (ix2 k q')) + x3 (ix2 (0 : Fin 1) q')) * ν (ix2 r (0 : Fin 2))
  refine congrArg (· * ν (ix2 r (0 : Fin 2))) (congrArg (· + x3 (ix2 (0 : Fin 1) q')) (Finset.sum_congr rfl fun k _ => ?_))
  rw [truncf_apply, truncf_apply, mulf_apply, Cert.Keepdims.broadcastTo_a1_ab_apply, col_k1_pay1 (c := 1) _ _ 1 rfl, e0 k, e1 1]

/-- The block at block index (n, 0) of 4000-row blocks has its row r in the array's row n · 4000 + r. -/
theorem emb_row {c : Nat} {E : (⟨2, ![4000, c]⟩ : Shape).Idx → (⟨2, ![100000, c]⟩ : Shape).Idx} {i : Fin 2 → Nat} {n : Nat}
    (h : ∀ y a, (E y a).val = i a * (⟨2, ![4000, c]⟩ : Shape).size a + 1 * (y a).val) (e0 : i 0 = n) (e1 : i 1 = 0)
    (r : Fin 4000) (k : Fin c) (m : Fin 100000) (hm : m.val = n * 4000 + r.val) : E (ix2 r k) = ix2 m k := by
  have b0 : (E (ix2 r k) 0).val = i 0 * 4000 + 1 * r.val := h _ 0
  have b1 : (E (ix2 r k) 1).val = i 1 * c + 1 * k.val := h _ 1
  rw [e1] at b1
  funext a
  match a with
  | ⟨0, _⟩ => exact Fin.ext (show (E (ix2 r k) 0).val = m.val by omega)
  | ⟨1, _⟩ => exact Fin.ext (show (E (ix2 r k) 1).val = k.val by omega)

/-- The block at block index 0 on every axis sits in its array at the same coordinates. -/
theorem emb_id {S : Shape} {E : S.Idx → S.Idx} {i : Fin S.rank → Nat}
    (h : ∀ y a, (E y a).val = i a * S.size a + 1 * (y a).val) (e : ∀ a, i a = 0) (k : S.Idx) : E k = k :=
  funext fun a => Fin.ext (by rw [h, e, Nat.zero_mul, Nat.zero_add, Nat.one_mul])

/-- The output's and the two row operands' blocks at block index (n, 0), the weights' and the bias row's at (0, 0). -/
abbrev RowBlocksAt (n : Nat) (i4 i0 i1 i2 i3 : Fin 2 → Nat) : Prop :=
  i4 0 = n ∧ i4 1 = 0 ∧ i0 0 = n ∧ i0 1 = 0 ∧ i1 0 = n ∧ i1 1 = 0 ∧ (∀ a, i2 a = 0) ∧ ∀ a, i3 a = 0

/-- At those block indices the body's result on the blocks of four arrays is the output's block of their layer. -/
theorem layer_blocks (a : Cert.Spec.Arr 100000 128) (ν : Cert.Spec.Arr 100000 2) (w : Cert.Spec.Arr 128 128) (β : Cert.Spec.Arr 1 128)
    {n : Nat} {i4 i0 i1 i2 i3 : Fin 2 → Nat} (hn : RowBlocksAt n i4 i0 i1 i2 i3) {b4 b0 b1 b2 b3} :
    (out1_4 (F := Ideal)
        (fun y => a ((Rect.unit (s := S100000x128) (fun x => i0 x * S4000x128.size x) S4000x128.size b0).emb y))
        (fun y => ν ((Rect.unit (s := S100000x2) (fun x => i1 x * S4000x2.size x) S4000x2.size b1).emb y))
        (fun y => w ((Rect.unit (s := S128x128) (fun x => i2 x * S128x128.size x) S128x128.size b2).emb y))
        (fun y => β ((Rect.unit (s := S1x128) (fun x => i3 x * S1x128.size x) S1x128.size b3).emb y)) : S4000x128.Idx → EReal)
      = fun j => Cert.Spec.layer a ν w β ((Rect.unit (s := S100000x128) (fun x => i4 x * S4000x128.size x) S4000x128.size b4).emb j) := by
  obtain ⟨e40, e41, e00, e01, e10, e11, e2, e3⟩ := hn
  unfold out1_4
  rw [View.canon_unit_zero zero_offsets]
  simp only [View.ld_unit_zero (S := S4000x128) zero_offsets, View.ld_unit_zero (S := S4000x2) zero_offsets,
    View.ld_unit_zero (S := S128x128) zero_offsets, View.ld_unit_zero (S := S1x128) zero_offsets]
  funext j
  generalize hE : (Rect.unit (s := S100000x128) (fun x => i4 x * S4000x128.size x) S4000x128.size b4).emb j = m
  have m0 : (m 0).val = i4 0 * 4000 + 1 * (j 0).val := hE ▸ rfl
  have m1 : (m 1).val = i4 1 * 128 + 1 * (j 1).val := hE ▸ rfl
  exact k1_pay1_point _ _ _ _ a ν w β j m (by omega)
    (fun k => congrArg a (emb_row (fun _ _ => rfl) e00 e01 (j 0) k (m 0) (by omega)))
    (fun u => congrArg ν (emb_row (fun _ _ => rfl) e10 e11 (j 0) u (m 0) (by omega)))
    (funext fun k => congrArg w (emb_id (fun _ _ => rfl) e2 k)) (funext fun k => congrArg β (emb_id (fun _ _ => rfl) e3 k))

theorem index_facts_cfg1 : ∀ t : Fin grid1.N, RowBlocksAt t.val (win1_4.index t) (win1_0.index t) (win1_1.index t)
    (win1_2.index t) (win1_3.index t) := by
  decide +kernel

theorem final1 (c : Dev nD) :
    ((dat1 (F := Ideal) V c).arrAt 4 cfg1.N : S100000x128.Idx → EReal)
      = Cert.Spec.layer (V c main_v40) (V c main_v23) (V c main_arg4) (V c main_v41) :=
  (dat1 (F := Ideal) V c).arrAt_eq_of_cover 4 _
    (fun t _ => by
      show (cfg1.win 4).cut (grid1.coords t) ((dat1 (F := Ideal) V c).after 4 t) = _
      rw [after1_4]
      exact layer_blocks _ _ _ _ (index_facts_cfg1 t))
    fun i => (cover_rows N_1 win1_4.index index_facts_cfg1 i).imp
      fun t h => ⟨flush1_4 t, mem_slice_whole_unit main_v42 h⟩

end Cert.KernelIdeal.Value
-- ==== Proof.KI.Value2.lean ====
import proofs.«421459_j2104533975239_3_alg».proof.Proof.KI.Region2
import proofs.«421459_j2104533975239_3_alg».proof.Proof.KI.Value1

namespace Cert.KernelIdeal.Value

open Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

theorem index_facts_cfg2 : ∀ t : Fin grid2.N, RowBlocksAt t.val (win2_4.index t) (win2_0.index t) (win2_1.index t)
    (win2_2.index t) (win2_3.index t) := by
  decide +kernel

theorem final2 (c : Dev nD) :
    ((dat2 (F := Ideal) V c).arrAt 4 cfg2.N : S100000x128.Idx → EReal)
      = Cert.Spec.layer (V c main_v53) (V c main_v23) (V c main_arg6) (V c main_v54) :=
  (dat2 (F := Ideal) V c).arrAt_eq_of_cover 4 _
    (fun t _ => by
      show (cfg2.win 4).cut (grid2.coords t) ((dat2 (F := Ideal) V c).after 4 t) = _
      rw [after2_4]
      exact layer_blocks _ _ _ _ (index_facts_cfg2 t))
    fun i => (cover_rows N_2 win2_4.index index_facts_cfg2 i).imp
      fun t h => ⟨flush2_4 t, mem_slice_whole_unit main_v55 h⟩

end Cert.KernelIdeal.Value
-- ==== Proof.KI.Value3.lean ====
import proofs.«421459_j2104533975239_3_alg».proof.Proof.KI.Region3
import proofs.«421459_j2104533975239_3_alg».proof.Proof.KI.Value1

namespace Cert.KernelIdeal.Value

open Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

theorem index_facts_cfg3 : ∀ t : Fin grid3.N, RowBlocksAt t.val (win3_4.index t) (win3_0.index t) (win3_1.index t)
    (win3_2.index t) (win3_3.index t) := by
  decide +kernel

theorem final3 (c : Dev nD) :
    ((dat3 (F := Ideal) V c).arrAt 4 cfg3.N : S100000x128.Idx → EReal)
      = Cert.Spec.layer (V c main_v66) (V c main_v23) (V c main_arg8) (V c main_v67) :=
  (dat3 (F := Ideal) V c).arrAt_eq_of_cover 4 _
    (fun t _ => by
      show (cfg3.win 4).cut (grid3.coords t) ((dat3 (F := Ideal) V c).after 4 t) = _
      rw [after3_4]
      exact layer_blocks _ _ _ _ (index_facts_cfg3 t))
    fun i => (cover_rows N_3 win3_4.index index_facts_cfg3 i).imp
      fun t h => ⟨flush3_4 t, mem_slice_whole_unit main_v68 h⟩

end Cert.KernelIdeal.Value
-- ==== Proof.KI.Value4.lean ====
import proofs.«421459_j2104533975239_3_alg».proof.Proof.KI.Region4
import proofs.«421459_j2104533975239_3_alg».proof.Proof.KI.Value1

namespace Cert.KernelIdeal.Value

open Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

theorem index_facts_cfg4 : ∀ t : Fin grid4.N, RowBlocksAt t.val (win4_4.index t) (win4_0.index t) (win4_1.index t)
    (win4_2.index t) (win4_3.index t) := by
  decide +kernel

theorem final4 (c : Dev nD) :
    ((dat4 (F := Ideal) V c).arrAt 4 cfg4.N : S100000x128.Idx → EReal)
      = Cert.Spec.layer (V c main_v79) (V c main_v23) (V c main_arg10) (V c main_v80) :=
  (dat4 (F := Ideal) V c).arrAt_eq_of_cover 4 _
    (fun t _ => by
      show (cfg4.win 4).cut (grid4.coords t) ((dat4 (F := Ideal) V c).after 4 t) = _
      rw [after4_4]
      exact layer_blocks _ _ _ _ (index_facts_cfg4 t))
    fun i => (cover_rows N_4 win4_4.index index_facts_cfg4 i).imp
      fun t h => ⟨flush4_4 t, mem_slice_whole_unit main_v81 h⟩

end Cert.KernelIdeal.Value
-- ==== Proof.LibBlockSum.lean ====
import Mathlib.Logic.Equiv.Fin.Basic
import Mathlib.Data.Fintype.BigOperators
import Mathlib.Algebra.BigOperators.Group.Finset.Defs

namespace Cert.Lib

-- A sum over n < T · L is the sum over the blocks t < T of the sums over the places l < L.
theorem sum_blocks {M : Type*} [AddCommMonoid M] {T L N : ℕ} (hN : T * L = N) (g : Fin N → M)
    (hb : ∀ (t : Fin T) (l : Fin L), t.val * L + l.val < N) :
    ∑ t : Fin T, ∑ l : Fin L, g ⟨t.val * L + l.val, hb t l⟩ = ∑ n : Fin N, g n := by
  subst hN
  rw [← (finProdFinEquiv (m := T) (n := L)).sum_comp g, Fintype.sum_prod_type]
  refine Finset.sum_congr rfl fun t _ => Finset.sum_congr rfl fun l _ => congrArg g (Fin.ext ?_)
  show t.val * L + l.val = l.val + L * t.val
  rw [Nat.mul_comm, Nat.add_comm]

end Cert.Lib
-- ==== Proof.LibColProducts.lean ====
import Idealize.ShloMosaic.PureOps.Ideal.Laws
import Idealize.ShloMosaic.Lib.ValueIdx

noncomputable section

open scoped BigOperators

namespace Cert.Lib.ColProducts

open Idealize.ShloMosaic Idealize.ShloMosaic.ValueIdx

variable {n K c : Nat} {φ₁ φ₂ : FTy}

-- A product that contracts the first axis of both operands, into zeros: entry (r, c') is ∑ q, l (q, r) · w (q, c').
theorem matmul_zero_ix2 (hw : DotDims.WF ⟨2, ![K, n]⟩ ⟨2, ![K, c]⟩ ⟨2, ![n, c]⟩ [0] [0] [1] [1] [] [])
    (prec : Option ContractPrecision) (l : FVec Ideal ⟨2, ![K, n]⟩ φ₁) (w : FVec Ideal ⟨2, ![K, c]⟩ φ₂) (r : Fin n) (c' : Fin c) :
    matmul (F := Ideal) (⟨[0], [0], [1], [1], [], [], hw⟩ : DotDims _ _ _) prec l w (constant ⟨2, ![n, c]⟩ .f32 0x00000000#32) (ix2 r c')
      = ∑ q : Fin K, l (ix2 q r) * w (ix2 q c') := by
  refine (Ideal.matmul_constant_zero_apply _ prec l w (ix2 r c')).trans ?_
  rw [← Equiv.sum_comp (contrEquiv1 (⟨[0], [0], [1], [1], [], [], hw⟩ : DotDims _ _ _) K rfl rfl).symm]
  refine Finset.sum_congr rfl fun q _ => ?_
  have hq := contrEquiv1_symm_val (⟨[0], [0], [1], [1], [], [], hw⟩ : DotDims ⟨2, ![K, n]⟩ ⟨2, ![K, c]⟩ ⟨2, ![n, c]⟩) K rfl rfl q
  have e1 : (⟨[0], [0], [1], [1], [], [], hw⟩ : DotDims ⟨2, ![K, n]⟩ ⟨2, ![K, c]⟩ ⟨2, ![n, c]⟩).lhsIdx (ix2 r c')
      ((contrEquiv1 _ K rfl rfl).symm q) = ix2 q r := by
    funext a; apply Fin.ext
    match a with
    | ⟨0, _⟩ => simp [DotDims.lhsIdx]; exact hq
    | ⟨1, _⟩ => simp [DotDims.lhsIdx]; rfl
  have e2 : (⟨[0], [0], [1], [1], [], [], hw⟩ : DotDims ⟨2, ![K, n]⟩ ⟨2, ![K, c]⟩ ⟨2, ![n, c]⟩).rhsIdx (ix2 r c')
      ((contrEquiv1 _ K rfl rfl).symm q) = ix2 q c' := by
    funext a; apply Fin.ext
    match a with
    | ⟨0, _⟩ => simp [DotDims.rhsIdx]; exact hq
    | ⟨1, _⟩ => simp [DotDims.rhsIdx]; rfl
  rw [e1, e2]

end Cert.Lib.ColProducts

end
-- ==== Proof.KI.Value5.lean ====
import proofs.«421459_j2104533975239_3_alg».proof.Proof.KI.Region5
import proofs.«421459_j2104533975239_3_alg».proof.Proof.Spec
import proofs.«421459_j2104533975239_3_alg».proof.Proof.LibBlockSum
import proofs.«421459_j2104533975239_3_alg».proof.Proof.LibColProducts
import proofs.«421459_j2104533975239_3_alg».proof.Proof.LibKeepdims
import Idealize.ShloMosaic.Lib.Pipeline.Value
import Idealize.ShloMosaic.Lib.ValueIdx
import Idealize.ShloMosaic.Lib.ValueLayout
import Idealize.ShloMosaic.Lib.IdealHost
import Idealize.ShloMosaic.Lib.Tactic
import Idealize.ShloMosaic.Lib.StackMember
import Idealize.ShloMosaic.Lib.KernelVsHost

set_option maxRecDepth 16384

noncomputable section

open scoped BigOperators

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen
namespace R5

variable {F : FTy → Type} [FloatOps F]

theorem hz : (![0, 0] : Fin 2 → Nat) = fun _ => 0 := funext fun a => by fin_cases a <;> rfl

abbrev r64 : Rect S128x128 := Rect.unit (s := S128x128) ![0, 0] S64x128.size inb_S128x128_S64x128_0_0

section Blocks
variable {F : FTy → Type} [FloatOps F]
variable (V : (c : Dev nD) → (b : Ref sig .tc) → Buf (Elt F) ((c : Thread nD τ).loc b))

theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0 :=
  (by decide +kernel : ∀ t : Fin grid5.N, _)

theorem idx2_ext {n k : ℕ} {x y : (⟨2, ![n, k]⟩ : Shape).Idx} (h0 : (x 0).val = (y 0).val) (h1 : (x 1).val = (y 1).val) : x = y :=
  funext fun a => Fin.ext (by match a with | ⟨0, _⟩ => exact h0 | ⟨1, _⟩ => exact h1)

theorem node_lt (t : Fin cfg5.N) (q : Fin 4000) : t.val * 4000 + q.val < 100000 := by
  have h1 := t.isLt; have hN : cfg5.N = 25 := N_5; have h2 := q.isLt; omega

theorem blk0_apply (c : Dev nD) (t : Fin cfg5.N) (q : Fin 4000) (j : Fin 128) :
    (iblk5 V c 0 t : Vec F S4000x128 .f32) (ix2 q j)
      = (V c main_v92 : Vec F S100000x128 .f32) (ix2 ⟨t.val * 4000 + q.val, (node_lt t q)⟩ j) := by
  have e := idx5 t
  refine congrArg (V c main_v92) (idx2_ext (x := ((cfg5.win 0).blk t).view.emb (ix2 q j)) ?_ ?_)
  · show win5_0.index t (0 : Fin 2) * 4000 + 1 * q.val = t.val * 4000 + q.val; omega
  · show win5_0.index t (1 : Fin 2) * 128 + 1 * j.val = j.val; omega

theorem blk1_apply (c : Dev nD) (t : Fin cfg5.N) (q : Fin 4000) (j : Fin 2) :
    (iblk5 V c 1 t : Vec F S4000x2 .f32) (ix2 q j)
      = (V c main_v23 : Vec F S100000x2 .f32) (ix2 ⟨t.val * 4000 + q.val, (node_lt t q)⟩ j) := by
  have e := idx5 t
  refine congrArg (V c main_v23) (idx2_ext (x := ((cfg5.win 1).blk t).view.emb (ix2 q j)) ?_ ?_)
  · show win5_1.index t (0 : Fin 2) * 4000 + 1 * q.val = t.val * 4000 + q.val; omega
  · show win5_1.index t (1 : Fin 2) * 2 + 1 * j.val = j.val; omega

theorem blk4_apply (c : Dev nD) (t : Fin cfg5.N) (q : Fin 4000) (j : Fin 1) :
    (iblk5 V c 4 t : Vec F S4000x1 .i32) (ix2 q j)
      = (V c main_v94 : Vec F S100000x1 .i32) (ix2 ⟨t.val * 4000 + q.val, (node_lt t q)⟩ j) := by
  have e := idx5 t
  refine congrArg (V c main_v94) (idx2_ext (x := ((cfg5.win 4).blk t).view.emb (ix2 q j)) ?_ ?_)
  · show win5_4.index t (0 : Fin 2) * 4000 + 1 * q.val = t.val * 4000 + q.val; omega
  · show win5_4.index t (1 : Fin 2) * 1 + 1 * j.val = j.val; omega

theorem blk2_eq (c : Dev nD) (t : Fin cfg5.N) :
    (iblk5 V c 2 t : Vec F S128x128 .f32) = (V c main_arg12 : Vec F S128x128 .f32) := by
  have e := idx5 t
  funext y
  refine congrArg (V c main_arg12) (idx2_ext (x := ((cfg5.win 2).blk t).view.emb y) ?_ ?_)
  · show win5_2.index t (0 : Fin 2) * 128 + 1 * (y 0).val = (y 0).val; omega
  · show win5_2.index t (1 : Fin 2) * 128 + 1 * (y 1).val = (y 1).val; omega

theorem blk3_eq (c : Dev nD) (t : Fin cfg5.N) :
    (iblk5 V c 3 t : Vec F S1x128 .f32) = (V c main_v93 : Vec F S1x128 .f32) := by
  have e := idx5 t
  funext y
  refine congrArg (V c main_v93) (idx2_ext (x := ((cfg5.win 3).blk t).view.emb y) ?_ ?_)
  · show win5_3.index t (0 : Fin 2) * 1 + 1 * (y 0).val = (y 0).val; omega
  · show win5_3.index t (1 : Fin 2) * 128 + 1 * (y 1).val = (y 1).val; omega

theorem blk5_eq (c : Dev nD) (t : Fin cfg5.N) :
    (iblk5 V c 5 t : Vec F S64x1 .f32) = (V c main_v28 : Vec F S64x1 .f32) := by
  have e := idx5 t
  funext y
  refine congrArg (V c main_v28) (idx2_ext (x := ((cfg5.win 5).blk t).view.emb y) ?_ ?_)
  · show win5_5.index t (0 : Fin 2) * 64 + 1 * (y 0).val = (y 0).val; omega
  · show win5_5.index t (1 : Fin 2) * 1 + 1 * (y 1).val = (y 1).val; omega

theorem blk6_eq (c : Dev nD) (t : Fin cfg5.N) :
    (iblk5 V c 6 t : Vec F S1x128 .f32) = (V c main_arg14 : Vec F S1x128 .f32) := by
  have e := idx5 t
  funext y
  refine congrArg (V c main_arg14) (idx2_ext (x := ((cfg5.win 6).blk t).view.emb y) ?_ ?_)
  · show win5_6.index t (0 : Fin 2) * 1 + 1 * (y 0).val = (y 0).val; omega
  · show win5_6.index t (1 : Fin 2) * 128 + 1 * (y 1).val = (y 1).val; omega

theorem blk7_eq (c : Dev nD) (t : Fin cfg5.N) :
    (iblk5 V c 7 t : Vec F S1x1 .f32) = (V c main_v95 : Vec F S1x1 .f32) := by
  have e := idx5 t
  funext y
  refine congrArg (V c main_v95) (idx2_ext (x := ((cfg5.win 7).blk t).view.emb y) ?_ ?_)
  · show win5_7.index t (0 : Fin 2) * 1 + 1 * (y 0).val = (y 0).val; omega
  · show win5_7.index t (1 : Fin 2) * 1 + 1 * (y 1).val = (y 1).val; omega

theorem scratch_zero (c : Dev nD) (t : Fin cfg5.N) (h0 : t.val % 25 = 0) (h1 : ¬t.val % 25 = 24) :
    (outsAt5 V c t.val t.isLt).2
      = k5_pay3 (iblk5 V c 0 t) (iblk5 V c 1 t) (iblk5 V c 2 t) (iblk5 V c 3 t) (iblk5 V c 4 t) (k5_pay2 (F := F)) := by
  rw [outsAt5_A V c t h0 h1]
  dsimp only
  unfold sout5_A_0
  rw [View.read_writes_eq_canon _ _ _ (fun y => scover5_A_0 (y := y) ..)]
  unfold kernelRun5_A
  dsimp only
  sl_unfold_words
  rw [View.canon_cons_unit_zero (S := S128x128) hz, View.readCov_unit_zero (S := S128x128) _ hz]
  simp only [View.readAt_eq_ld, Memref.IsWhole.read_unread, View.ld_unit_zero (S := S4000x128) hz, View.ld_unit_zero (S := S4000x2) hz, View.ld_unit_zero (S := S128x128) hz, View.ld_unit_zero (S := S1x128) hz, View.ld_unit_zero (S := S4000x1) hz]

theorem scratch_succ (c : Dev nD) (t : Fin cfg5.N) (h0 : ¬t.val % 25 = 0) :
    (outsAt5 V c t.val t.isLt).2
      = k5_pay3 (iblk5 V c 0 t) (iblk5 V c 1 t) (iblk5 V c 2 t) (iblk5 V c 3 t) (iblk5 V c 4 t)
          (outsAt5 V c (t.val - 1) (Nat.lt_of_le_of_lt (Nat.sub_le _ _) t.isLt)).2 := by
  by_cases h1 : t.val % 25 = 24
  on_goal 1 =>
    rw [outsAt5_C V c t h0 h1]
    dsimp only
    unfold sout5_C_0
    rw [View.read_writes_eq_canon _ _ _ (fun y => scover5_C_0 (y := y) ..)]
    unfold kernelRun5_C
  on_goal 2 =>
    rw [outsAt5_B V c t h0 h1]
    dsimp only
    unfold sout5_B_0
    rw [View.read_writes_eq_canon _ _ _ (fun y => scover5_B_0 (y := y) ..)]
    unfold kernelRun5_B
  all_goals
    dsimp only
    sl_unfold_words
    rw [View.canon_unit_zero hz]
    simp only [View.readAt_eq_ld, Memref.IsWhole.read_unread, (Memref.isWhole_whole cc5_scratch0).read_unread, View.ld_unit_zero (S := S4000x128) hz, View.ld_unit_zero (S := S4000x2) hz, View.ld_unit_zero (S := S128x128) hz, View.ld_unit_zero (S := S1x128) hz, View.ld_unit_zero (S := S4000x1) hz]

theorem out_last (c : Dev nD) (t : Fin cfg5.N) (h0 : ¬t.val % 25 = 0) (h1 : t.val % 25 = 24) :
    (outsAt5 V c t.val t.isLt).1
      = k5_pay1 (View.ld (outsAt5 V c t.val t.isLt).2 r64) (iblk5 V c 5 t) (iblk5 V c 6 t) (iblk5 V c 7 t) := by
  rw [scratch_succ V c t h0, outsAt5_C V c t h0 h1]
  dsimp only
  unfold out5_C_8
  rw [View.read_writes_eq_canon _ _ _ (fun y => cover5_C_8 (y := y) ..)]
  unfold kernelRun5_C
  dsimp only
  sl_unfold_words
  rw [View.canon_unit_zero hz]
  rw [View.readCov_eq_canon_ld _ _ _ (fun y => ⟨_, List.mem_singleton_self _, View.mem_set_unit_zero hz inb_S128x128_S128x128_0_0 y⟩)]
  rw [View.canon_unit_zero hz]
  simp only [View.readAt_eq_ld, Memref.IsWhole.read_unread, (Memref.isWhole_whole cc5_scratch0).read_unread, View.ld_unit_zero (S := S4000x128) hz, View.ld_unit_zero (S := S4000x2) hz, View.ld_unit_zero (S := S128x128) hz, View.ld_unit_zero (S := S1x128) hz, View.ld_unit_zero (S := S4000x1) hz, View.ld_unit_zero (S := S64x1) hz, View.ld_unit_zero (S := S1x1) hz]

end Blocks

theorem toInt_ofNat_lt (g : Fin 128) : (BitVec.ofNat 32 g.val).toInt = (g.val : ℤ) := by
  have h1 := g.isLt
  rw [BitVec.toInt_eq_toNat_cond, BitVec.toNat_ofNat]
  have h2 : g.val % 2 ^ 32 = g.val := Nat.mod_eq_of_lt (by omega)
  rw [h2, if_pos (by omega)]

theorem onehot_word (a : BitVec 32) (g : Fin 128) :
    (FloatOps.sitofp (F := Ideal) .f32 ((IntOp.cmpi .eq a (BitVec.ofNat 32 g.val)).setWidth 32) : EReal)
      = if a.toInt = (g.val : ℤ) then 1 else 0 := by
  by_cases h : a = BitVec.ofNat 32 g.val
  · subst h
    rw [if_pos (toInt_ofNat_lt g)]
    have e : IntOp.cmpi .eq (BitVec.ofNat 32 g.val) (BitVec.ofNat 32 g.val) = 1#1 := by simp [IntOp.cmpi]
    rw [e]
    show (((((1#1 : BitVec 1).setWidth 32).toInt : ℤ) : ℝ) : EReal) = 1
    rw [show ((1#1 : BitVec 1).setWidth 32).toInt = 1 from by decide]
    norm_cast
  · have hne : ¬ a.toInt = (g.val : ℤ) := fun he => h (BitVec.eq_of_toInt_eq (he.trans (toInt_ofNat_lt g).symm))
    rw [if_neg hne]
    have e : IntOp.cmpi .eq a (BitVec.ofNat 32 g.val) = 0#1 := by
      show BitVec.ofBool (a == BitVec.ofNat 32 g.val) = 0#1
      rw [beq_false_of_ne h]; rfl
    rw [e]
    show (((((0#1 : BitVec 1).setWidth 32).toInt : ℤ) : ℝ) : EReal) = 0
    rw [show ((0#1 : BitVec 1).setWidth 32).toInt = 0 from by decide]
    norm_cast

theorem pay2_apply (j : S128x128.Idx) : k5_pay2 (F := Ideal) j = 0 := by
  unfold k5_pay2
  refine (congrFun (shapeCast_self _ _) j).trans ?_
  exact Ideal.ofBits_zero_f32

theorem pay3_apply (x0 : Vec Ideal S4000x128 .f32) (x1 : Vec Ideal S4000x2 .f32) (x2 : Vec Ideal S128x128 .f32)
    (x3 : Vec Ideal S1x128 .f32) (x4 : Vec Ideal S4000x1 .i32) (xs : Vec Ideal S128x128 .f32) (g d : Fin 128) :
    (k5_pay3 (F := Ideal) x0 x1 x2 x3 x4 xs (ix2 g d) : EReal)
      = xs (ix2 g d) + ∑ q : Fin 4000, (if (x4 (ix2 q (0 : Fin 1))).toInt = (g.val : ℤ) then (1 : EReal) else 0)
          * ((∑ j : Fin 128, (x0 (ix2 q j) * x1 (ix2 q (1 : Fin 2))) * x2 (ix2 j d)) + x3 (ix2 (0 : Fin 1) d)) := by
  unfold k5_pay3
  refine (congrFun (shapeCast_self _ _) (ix2 g d)).trans ?_
  refine (addf_apply _ _ (ix2 g d)).trans ?_
  refine congrArg (xs (ix2 g d) + ·) ?_
  refine (Cert.Lib.ColProducts.matmul_zero_ix2 _ none _ _ g d).trans ?_
  refine Finset.sum_congr rfl fun q _ => ?_
  refine congrArg₂ (· * ·) ?_ ?_
  · exact (congrArg₂ (fun a b => (FloatOps.sitofp (F := Ideal) .f32 ((IntOp.cmpi .eq a b).setWidth 32) : EReal))
      ((Cert.Keepdims.broadcastTo_a1_ab_apply _ _ q g).trans (congrFun (shapeCast_self x4 _) _))
      ((broadcastTo_1b_ab_apply _ _ q g).trans (iota_single_apply .tc S1x128 32 1 iota_S1x128_d1_w32 _))).trans (onehot_word _ g)
  · refine (addf_apply _ _ (ix2 q d)).trans ?_
    refine congrArg₂ (· + ·) ?_ ?_
    · refine ((congrFun (matmul_zero_eq_dotGeneral _ none _ _) _).trans (StackMember.dotGeneral_plain_apply none _ _ q d)).trans ?_
      refine Finset.sum_congr rfl fun j _ => ?_
      refine congrArg (· * x2 (ix2 j d)) ?_
      refine (mulf_apply _ _ (ix2 q j)).trans ?_
      refine congrArg₂ (· * ·) (congrFun (shapeCast_self x0 _) _) ?_
      refine (Cert.Keepdims.broadcastTo_a1_ab_apply _ _ q j).trans ?_
      refine (extractStridedSlice_apply ![0, 1] _ slices_S4000x2_o0_1_S4000x1 (ix2 q (0 : Fin 1)) (ix2 q (1 : Fin 2)) ?_).trans
        (congrFun (shapeCast_self x1 _) _)
      intro a
      match a with
      | ⟨0, _⟩ => show q.val = 0 + q.val; omega
      | ⟨1, _⟩ => rfl
    · exact (broadcastTo_1b_ab_apply _ _ q d).trans (congrFun (shapeCast_self x3 _) _)

theorem pay1_apply (S : Vec Ideal S64x128 .f32) (cnt : Vec Ideal S64x1 .f32) (φ : Vec Ideal S1x128 .f32)
    (φ₀ : Vec Ideal S1x1 .f32) (g : Fin 64) :
    (k5_pay1 (F := Ideal) S cnt φ φ₀ (ix2 g (0 : Fin 1)) : EReal)
      = Ideal.div 1 (1 + Ideal.exp (-((∑ d : Fin 128, Ideal.div (S (ix2 g d)) (max 1 (cnt (ix2 g (0 : Fin 1)))) * φ (ix2 (0 : Fin 1) d))
          + φ₀ (ix2 (0 : Fin 1) (0 : Fin 1))))) := by
  unfold k5_pay1
  refine (divf_apply _ _ (ix2 g (0 : Fin 1))).trans ?_
  refine congrArg₂ Ideal.div Ideal.ofBits_one_f32 ?_
  refine (addf_apply _ _ (ix2 g (0 : Fin 1))).trans ?_
  refine congrArg₂ (· + ·) Ideal.ofBits_one_f32 ?_
  show Ideal.exp (_ - _) = _
  refine congrArg Ideal.exp ?_
  refine (congrArg₂ (· - ·) Ideal.ofBits_zero_f32 ?_).trans (zero_sub _)
  refine (addf_apply _ _ (ix2 g (0 : Fin 1))).trans ?_
  refine congrArg₂ (· + ·) ?_ ?_
  · refine (Cert.Keepdims.shapeCast_a_a1_apply _ shapeCasts_S64_S64x1 g (0 : Fin 1)).trans ?_
    refine (Cert.Keepdims.add_rows_f32 _ reduces_S64x128_S64 (.inl rfl) rfl g).trans ?_
    refine Finset.sum_congr rfl fun d _ => ?_
    refine (mulf_apply _ _ (ix2 g d)).trans ?_
    refine congrArg₂ (· * ·) ?_ (broadcastTo_1b_ab_apply φ broadcasts_S1x128_S64x128 g d)
    refine (divf_apply _ _ (ix2 g d)).trans ?_
    refine congrArg (Ideal.div (S (ix2 g d))) ?_
    refine (Cert.Keepdims.broadcastTo_a1_ab_apply _ broadcasts_S64x1_S64x128 g d).trans ?_
    refine (maximumf_apply _ _ (ix2 g (0 : Fin 1))).trans ?_
    exact congrArg₂ max Ideal.ofBits_one_f32 (congrFun (shapeCast_self cnt _) _)
  · exact (broadcastTo_1b_ab_apply _ broadcasts_S1x1_S64x1 g (0 : Fin 1)).trans (congrFun (shapeCast_self φ₀ _) _)

section AtIdeal
variable (V : (c : Dev nD) → (b : Ref sig .tc) → Buf (Elt Ideal) ((c : Thread nD τ).loc b))

abbrev yArr (c : Dev nD) : Cert.Spec.Arr 100000 128 :=
  Cert.Spec.dense (V c main_v92) (V c main_v23) (V c main_arg12) (V c main_v93)

def term (c : Dev nD) (g d : Fin 128) (n : Fin 100000) : EReal :=
  if ((V c main_v94 : IVec ⟨2, ![100000, 1]⟩ 32) (ix2 n (0 : Fin 1))).toInt = (g.val : ℤ) then yArr V c (ix2 n d) else 0

def contrib (c : Dev nD) (g d : Fin 128) (s : ℕ) : EReal :=
  if h : s < 25 then ∑ q : Fin 4000, term V c g d ⟨s * 4000 + q.val, by have := q.isLt; omega⟩ else 0

theorem pay3_blocks (c : Dev nD) (t : Fin cfg5.N) (xs : Vec Ideal S128x128 .f32) (g d : Fin 128) :
    (k5_pay3 (F := Ideal) (iblk5 V c 0 t) (iblk5 V c 1 t) (iblk5 V c 2 t) (iblk5 V c 3 t) (iblk5 V c 4 t) xs (ix2 g d) : EReal)
      = xs (ix2 g d) + contrib V c g d t.val := by
  have ht : t.val < 25 := lt_of_lt_of_eq t.isLt (show cfg5.N = 25 from N_5)
  refine (pay3_apply (iblk5 V c 0 t) (iblk5 V c 1 t) (iblk5 V c 2 t) (iblk5 V c 3 t) (iblk5 V c 4 t) xs g d).trans ?_
  refine congrArg (xs (ix2 g d) + ·) ?_
  unfold contrib
  rw [dif_pos ht]
  refine Finset.sum_congr rfl fun q _ => ?_
  unfold term yArr Cert.Spec.dense
  rw [blk4_apply V c t q (0 : Fin 1), blk1_apply V c t q (1 : Fin 2), blk2_eq V c t, blk3_eq V c t]
  simp only [blk0_apply V c t q]
  split_ifs
  · exact one_mul _
  · exact zero_mul _

theorem acc_eq (c : Dev nD) (g d : Fin 128) : ∀ (n : ℕ) (hn : n < cfg5.N),
    ((outsAt5 V c n hn).2 (ix2 g d) : EReal) = ∑ s ∈ Finset.range (n + 1), contrib V c g d s
  | 0, hn => by
    rw [scratch_zero V c ⟨0, hn⟩ rfl (by show ¬(0 % 25 = 24); decide), pay3_blocks V c ⟨0, hn⟩ _ g d, pay2_apply, zero_add]
    simp
  | n + 1, hn => by
    have hN : cfg5.N = 25 := N_5
    have h0 : ¬(⟨n + 1, hn⟩ : Fin cfg5.N).val % 25 = 0 := by dsimp only; omega
    rw [scratch_succ V c ⟨n + 1, hn⟩ h0, pay3_blocks V c ⟨n + 1, hn⟩ _ g d]
    show (outsAt5 V c n _).2 (ix2 g d) + contrib V c g d (n + 1) = _
    rw [acc_eq c g d n, Finset.sum_range_succ _ (n + 1)]

theorem contrib_total (c : Dev nD) (g d : Fin 128) :
    ∑ s ∈ Finset.range 25, contrib V c g d s = ∑ n : Fin 100000, term V c g d n := by
  rw [← Fin.sum_univ_eq_sum_range (fun s => contrib V c g d s) 25]
  rw [← Cert.Lib.sum_blocks (T := 25) (L := 4000) (N := 100000) rfl (term V c g d)
    (fun t l => by have := t.isLt; have := l.isLt; omega)]
  refine Finset.sum_congr rfl fun s _ => ?_
  unfold contrib
  rw [dif_pos s.isLt]

end AtIdeal

section Final
variable (V : (c : Dev nD) → (b : Ref sig .tc) → Buf (Elt Ideal) ((c : Thread nD τ).loc b))

theorem ld_r64_apply (X : Vec Ideal S128x128 .f32) (g : Fin 64) (d : Fin 128) :
    View.ld X r64 (ix2 g d) = X (ix2 (⟨g.val, by have := g.isLt; omega⟩ : Fin 128) d) := by
  refine congrArg X (idx2_ext (x := r64.idx (ix2 g d)) ?_ ?_)
  · show 0 + 1 * g.val = g.val; omega
  · show 0 + 1 * d.val = d.val; omega

abbrev result (c : Dev nD) : Buf (Elt Ideal) ((c : Thread nD τ).loc main_v96) :=
  Cert.Spec.readout (Cert.Spec.pooled (G := 64) (V c main_v94) (yArr V c)) (V c main_v28) (V c main_arg14) (V c main_v95)

theorem pooled_eq (c : Dev nD) (t : Fin cfg5.N) (h24 : t.val = 24) (g : Fin 64) (d : Fin 128) :
    (View.ld (outsAt5 V c t.val t.isLt).2 r64 (ix2 g d) : EReal)
      = Cert.Spec.pooled (G := 64) (V c main_v94) (yArr V c) (ix2 g d) := by
  refine (ld_r64_apply _ g d).trans ((acc_eq V c _ d t.val t.isLt).trans ?_)
  rw [h24]
  exact (contrib_total V c _ d).trans (Finset.sum_congr rfl fun n _ => rfl)

theorem out_eq (c : Dev nD) (t : Fin cfg5.N) (h24 : t.val = 24) :
    ((outsAt5 V c t.val t.isLt).1 : S64x1.Idx → EReal) = result V c := by
  have h0 : ¬t.val % 25 = 0 := by omega
  have h1 : t.val % 25 = 24 := by omega
  rw [out_last V c t h0 h1, blk5_eq V c t, blk6_eq V c t, blk7_eq V c t]
  funext i
  obtain ⟨g, u, rfl⟩ : ∃ (g : Fin 64) (u : Fin 1), i = ix2 g u := ⟨i 0, i 1, eq_ix2 i⟩
  obtain rfl : u = 0 := Subsingleton.elim _ _
  refine (pay1_apply _ _ _ _ g).trans ?_
  simp only [pooled_eq V c t h24 g]
  rfl

theorem flushed_eq (c : Dev nD) (t : Fin cfg5.N) (hf : (cfg5.win 8).flush t = true) :
    (dat5 (F := Ideal) V c).flushed 8 t = ((cfg5.win 8).blk t).view.read (Elt Ideal) (result V c) := by
  have hN : cfg5.N = 25 := N_5
  have h24 : t.val = 24 := by have := (flush5_8 t).mp hf; have := t.isLt; omega
  have e := idx5 t
  show (cfg5.win 8).cut (grid5.coords t) ((dat5 (F := Ideal) V c).after 8 t) = _
  rw [after5_8, out_eq V c t h24]
  have hz' : (fun a => win5_8.index t a * main_v96.ty.shape.size a) = fun _ => 0 := funext fun a => by
    match a with
    | ⟨0, _⟩ => show win5_8.index t (0 : Fin 2) * 64 = 0; omega
    | ⟨1, _⟩ => show win5_8.index t (1 : Fin 2) * 1 = 0; omega
  exact (Memref.read_access_unit_zero (Elt Ideal) main_v96 hz' (fun a => by rw [congrFun hz' a]; simp) (result V c)).symm

abbrev t24 : Fin cfg5.N := ⟨24, by rw [show cfg5.N = 25 from N_5]; decide⟩

theorem _root_.Cert.KernelIdeal.Value.final5 (c : Dev nD) : ((dat5 (F := Ideal) V c).arrAt 8 cfg5.N : S64x1.Idx → EReal)
    = Cert.Spec.readout (Cert.Spec.pooled (G := 64) (V c main_v94)
        (Cert.Spec.dense (V c main_v92) (V c main_v23) (V c main_arg12) (V c main_v93))) (V c main_v28) (V c main_arg14) (V c main_v95) :=
  (dat5 (F := Ideal) V c).arrAt_eq_of_cover 8 (result V c) (flushed_eq V c) fun i =>
    ⟨t24, (flush5_8 t24).mpr rfl, by
      have e := idx5 t24
      show i ∈ ((View.whole main_v96).slice (win5_8.rect t24)).set
      rw [View.set_slice_whole, Rect.mem_set_unit]
      intro a
      have h0 : (i 0 : Nat) < 64 := (i 0).isLt
      have h1 : (i 1 : Nat) < 1 := (i 1).isLt
      match a with
      | ⟨0, _⟩ => show win5_8.index t24 (0 : Fin 2) * 64 ≤ (i 0 : Nat) ∧ (i 0 : Nat) < win5_8.index t24 (0 : Fin 2) * 64 + 64
                  omega
      | ⟨1, _⟩ => show win5_8.index t24 (1 : Fin 2) * 1 ≤ (i 1 : Nat) ∧ (i 1 : Nat) < win5_8.index t24 (1 : Fin 2) * 1 + 1
                  omega⟩

end Final

end R5

end Cert.KernelIdeal.Value

end
-- ==== Proof.KI.Chain.lean ====
import proofs.«421459_j2104533975239_3_alg».proof.Proof.KI.Stages
import proofs.«421459_j2104533975239_3_alg».proof.Proof.KI.Value0
import proofs.«421459_j2104533975239_3_alg».proof.Proof.KI.Value1
import proofs.«421459_j2104533975239_3_alg».proof.Proof.KI.Value2
import proofs.«421459_j2104533975239_3_alg».proof.Proof.KI.Value3
import proofs.«421459_j2104533975239_3_alg».proof.Proof.KI.Value4
import proofs.«421459_j2104533975239_3_alg».proof.Proof.KI.Value5

set_option maxRecDepth 16384

noncomputable section

namespace Cert.KernelIdeal.Value

open Cert.KernelIdeal Cert.KernelIdeal.Gen Cert.KernelIdeal.Stage
open Idealize.ShloMosaic Idealize.ShloMosaic.TcCoe

variable (m : (ℓ : Loc nD τ sig) → Buf (Elt Ideal) ℓ)

theorem out0_eq (c : Dev nD) :
    (Y6 m c main_v29 : S100000x128.Idx → EReal)
      = Cert.Spec.scaleRows (m ((c : Thread nD τ).loc main_arg0)) (normK (m ((c : Thread nD τ).loc main_arg1))) := by
  rw [Y6_self m c]
  refine (U6_arr m c 2).trans ((final0 (En0 m) c).trans ?_)
  show Cert.Spec.scaleRows (V5 m c main_arg0) (V5 m c main_v20) = _
  rw [carry5_main_arg0 m c, v5_v20 m c]

theorem out1_eq (c : Dev nD) :
    (Y8 m c main_v42 : S100000x128.Idx → EReal)
      = Cert.Spec.layer (aggK (Y6 m c main_v29) (m ((c : Thread nD τ).loc main_arg1)) (m ((c : Thread nD τ).loc main_arg2)))
          (normsK (m ((c : Thread nD τ).loc main_arg1)) (m ((c : Thread nD τ).loc main_arg2)))
          (m ((c : Thread nD τ).loc main_arg4)) (rowK (m ((c : Thread nD τ).loc main_arg5))) := by
  rw [Y8_self m c]
  refine (U8_arr m c 4).trans ((final1 (En1 m) c).trans ?_)
  show Cert.Spec.layer (Y7 m c main_v40) (Y7 m c main_v23) (Y7 m c main_arg4) (Y7 m c main_v41) = _
  rw [y7_agg m c, carry7_main_v23 m c, v5_v23 m c, carry7_main_arg4 m c, y7_row m c]

theorem out2_eq (c : Dev nD) :
    (Y10 m c main_v55 : S100000x128.Idx → EReal)
      = Cert.Spec.layer (aggK (Y8 m c main_v42) (m ((c : Thread nD τ).loc main_arg1)) (m ((c : Thread nD τ).loc main_arg2)))
          (normsK (m ((c : Thread nD τ).loc main_arg1)) (m ((c : Thread nD τ).loc main_arg2)))
          (m ((c : Thread nD τ).loc main_arg6)) (rowK (m ((c : Thread nD τ).loc main_arg7))) := by
  rw [Y10_self m c]
  refine (U10_arr m c 4).trans ((final2 (En2 m) c).trans ?_)
  show Cert.Spec.layer (Y9 m c main_v53) (Y9 m c main_v23) (Y9 m c main_arg6) (Y9 m c main_v54) = _
  rw [y9_agg m c, carry9_main_v23 m c, v5_v23 m c, carry9_main_arg6 m c, y9_row m c]

theorem out3_eq (c : Dev nD) :
    (Y12 m c main_v68 : S100000x128.Idx → EReal)
      = Cert.Spec.layer (aggK (Y10 m c main_v55) (m ((c : Thread nD τ).loc main_arg1)) (m ((c : Thread nD τ).loc main_arg2)))
          (normsK (m ((c : Thread nD τ).loc main_arg1)) (m ((c : Thread nD τ).loc main_arg2)))
          (m ((c : Thread nD τ).loc main_arg8)) (rowK (m ((c : Thread nD τ).loc main_arg9))) := by
  rw [Y12_self m c]
  refine (U12_arr m c 4).trans ((final3 (En3 m) c).trans ?_)
  show Cert.Spec.layer (Y11 m c main_v66) (Y11 m c main_v23) (Y11 m c main_arg8) (Y11 m c main_v67) = _
  rw [y11_agg m c, carry11_main_v23 m c, v5_v23 m c, carry11_main_arg8 m c, y11_row m c]

theorem out4_eq (c : Dev nD) :
    (Y14 m c main_v81 : S100000x128.Idx → EReal)
      = Cert.Spec.layer (aggK (Y12 m c main_v68) (m ((c : Thread nD τ).loc main_arg1)) (m ((c : Thread nD τ).loc main_arg2)))
          (normsK (m ((c : Thread nD τ).loc main_arg1)) (m ((c : Thread nD τ).loc main_arg2)))
          (m ((c : Thread nD τ).loc main_arg10)) (rowK (m ((c : Thread nD τ).loc main_arg11))) := by
  rw [Y14_self m c]
  refine (U14_arr m c 4).trans ((final4 (En4 m) c).trans ?_)
  show Cert.Spec.layer (Y13 m c main_v79) (Y13 m c main_v23) (Y13 m c main_arg10) (Y13 m c main_v80) = _
  rw [y13_agg m c, carry13_main_v23 m c, v5_v23 m c, carry13_main_arg10 m c, y13_row m c]

theorem result_eq (c : Dev nD) :
    (outsF m 16 main_v96 c : S64x1.Idx → EReal)
      = Cert.Spec.readout (Cert.Spec.pooled (G := 64) (colK (m ((c : Thread nD τ).loc main_arg3)))
          (Cert.Spec.dense (aggK (Y14 m c main_v81) (m ((c : Thread nD τ).loc main_arg1)) (m ((c : Thread nD τ).loc main_arg2)))
            (normsK (m ((c : Thread nD τ).loc main_arg1)) (m ((c : Thread nD τ).loc main_arg2))) (m ((c : Thread nD τ).loc main_arg12)) (rowK (m ((c : Thread nD τ).loc main_arg13)))))
          (cntK (m ((c : Thread nD τ).loc main_arg3))) (m ((c : Thread nD τ).loc main_arg14)) (oneK (m ((c : Thread nD τ).loc main_arg15))) := by
  rw [outsF_result m c]
  refine (final5 (En5 m) c).trans ?_
  show Cert.Spec.readout (Cert.Spec.pooled (G := 64) (Y15 m c main_v94)
      (Cert.Spec.dense (Y15 m c main_v92) (Y15 m c main_v23) (Y15 m c main_arg12) (Y15 m c main_v93)))
      (Y15 m c main_v28) (Y15 m c main_arg14) (Y15 m c main_v95) = _
  rw [y15_col m c, y15_agg m c, carry15_main_v23 m c, v5_v23 m c, carry15_main_arg12 m c, y15_row m c,
    carry15_main_v28 m c, v5_v28 m c, carry15_main_arg14 m c, y15_one m c]

end Cert.KernelIdeal.Value

end
-- ==== Proof.RefImports.lean ====
import proofs.«421459_j2104533975239_3_alg».proof.Proof.Gen.ReferenceIdeal.Run
import proofs.«421459_j2104533975239_3_alg».proof.Proof.Gen.ReferenceIdeal.Read
-- ==== Proof.LibScatterGather.lean ====
import Idealize.ShloMosaic.Lib.ValueIdx
import Idealize.ShloMosaic.PureOps.ShapeOps
import Idealize.ShloMosaic.PureOps.Dims
import Idealize.ShloMosaic.PureOps.Contract
import Idealize.ShloMosaic.PureOps.Ideal

noncomputable section

namespace Cert.Lib

open Idealize.ShloMosaic Idealize.ShloMosaic.ValueIdx

-- An update lands at i exactly when, on every axis, start plus window coordinate is i's coordinate.
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have h2 := h a
      omega
    · intro hf
      funext a
      apply Fin.ext
      have h1 := hf a
      show (d.start j idx a + (d.window j a : ℤ)).toNat = (i a).val
      omega
  · rename_i h
    constructor
    · intro hf
      exact absurd hf (by simp)
    · intro hf
      exfalso
      apply h
      intro a
      have h1 := hf a
      have h2 := (i a).isLt
      omega

theorem rows_start0 {N C n w : Nat} (d : ScatterDims ⟨2, ![N, C]⟩ ⟨2, ![n, 1]⟩ ⟨2, ![n, C]⟩)
    (huw : d.updateWindowDims = [1]) (hsd : d.scatterDimsToOperandDims = [0]) (hivd : d.indexVectorDim = 1)
    (idx : IVec ⟨2, ![n, 1]⟩ w) (e : Fin n) (c : Fin C) :
    d.start (ix2 e c) idx 0 = (idx (ix2 e (0 : Fin 1))).toInt := by

  have hAll : ∀ y ∈ d.uScatter, y = 0 := by
    intro y hy
    have h1 : y ∉ d.updateWindowDims := by have h0 := (List.mem_filter.1 hy).2; simpa using h0
    rw [huw] at h1
    have h2 : y ≠ 1 := fun e => h1 (List.mem_singleton.2 e)
    apply Fin.ext
    have h3 : y.val ≠ 1 := fun e => h2 (Fin.ext e)
    have := y.isLt
    show y.val = 0
    change y.val < 2 at this
    omega
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 2) d.scatterDimsToOperandDims = 0
    rw [hsd]; simp

theorem rows_lands {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (c : Fin C) (v : Fin N) (j : Fin C) :
    d.resultIdx? (ix2 e c) idx = some (ix2 v j) ↔ (idx (ix2 e (0 : Fin 1))).toInt = (v.val : ℤ) ∧ c = j := by
  rw [resultIdx?_eq_some_iff]
  have hk0 : (0 : Fin 2) ∉ d.sKept := by
    intro h
    have h0 := (List.mem_filter.1 h).2
    rw [hiw] at h0
    simp at h0
  have hk1 : (1 : Fin 2) ∈ d.sKept := by
    apply List.mem_filter.2
    refine ⟨List.mem_finRange _, ?_⟩
    rw [hiw]
    simp
  have hw0 : d.window (ix2 e c) 0 = 0 := by unfold ScatterDims.window; rw [dif_neg hk0]
  have hwAll : ∀ y ∈ d.updateWindowDims, y = 1 := by
    intro y hy; rw [huw] at hy; exact List.mem_singleton.1 hy
  have hw1 : d.window (ix2 e c) 1 = c.val := by
    unfold ScatterDims.window
    rw [dif_pos hk1, hwAll _ (List.getElem_mem _)]
    rfl
  have hm1 : (1 : Fin 2) ∉ d.scatterDimsToOperandDims := by rw [hsd]; simp
  have hs1 : d.start (ix2 e c) idx 1 = 0 := by unfold ScatterDims.start; rw [dif_neg hm1]
  constructor
  · intro h
    have h0 : d.start (ix2 e c) idx 0 + (d.window (ix2 e c) 0 : ℤ) = (v.val : ℤ) := h 0
    have h1 : d.start (ix2 e c) idx 1 + (d.window (ix2 e c) 1 : ℤ) = (j.val : ℤ) := h 1
    rw [rows_start0 d huw hsd hivd, hw0] at h0
    rw [hs1, hw1] at h1
    refine ⟨by simpa using h0, ?_⟩
    apply Fin.ext
    have h2 : (c.val : ℤ) = (j.val : ℤ) := by simpa using h1
    exact_mod_cast h2
  · rintro ⟨h, rfl⟩ a
    match a with
    | ⟨0, _⟩ =>
      show d.start (ix2 e c) idx 0 + (d.window (ix2 e c) 0 : ℤ) = (v.val : ℤ)
      rw [rows_start0 d huw hsd hivd, hw0, h]
      simp
    | ⟨1, _⟩ =>
      show d.start (ix2 e c) idx 1 + (d.window (ix2 e c) 1 : ℤ) = (c.val : ℤ)
      rw [hs1, hw1]
      simp

-- Entry (v, j) is the table's plus the sum of the update entries (e, j) over the rows e whose index, read signed, is v.
theorem scatterAdd_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (v : Fin N) (j : Fin C) :
    Host.scatterAdd (F := Ideal) (φ := .f32) d x idx upd (ix2 v j)
      = x (ix2 v j) + ∑ e : Fin n, if (idx (ix2 e (0 : Fin 1))).toInt = (v.val : ℤ) then upd (ix2 e j) else 0 := by
  unfold Host.scatterAdd
  rw [Ideal.hostScatterAdd_def]
  unfold Ideal.hostScatterAdd
  congr 1

  rw [Finset.sum_filter, sum_idx2]
  refine Finset.sum_congr rfl (fun e _ => ?_)
  by_cases hc : (idx (ix2 e (0 : Fin 1))).toInt = (v.val : ℤ)
  ·
    rw [if_pos hc, Finset.sum_eq_single j]
    · rw [if_pos ((rows_lands d huw hiw hsd hivd idx e j v j).2 ⟨hc, rfl⟩)]
    · intro c _ hcj
      rw [if_neg (fun h => hcj ((rows_lands d huw hiw hsd hivd idx e c v j).1 h).2)]
    · intro h
      exact absurd (Finset.mem_univ _) h
  ·
    rw [if_neg hc]
    apply Finset.sum_eq_zero
    intro c _
    rw [if_neg (fun h => hc ((rows_lands d huw hiw hsd hivd idx e c v j).1 h).1)]

end Cert.Lib

end
-- ==== Proof.RefSpec.lean ====
import proofs.«421459_j2104533975239_3_alg».proof.Proof.RefImports
import proofs.«421459_j2104533975239_3_alg».proof.Proof.Spec
import proofs.«421459_j2104533975239_3_alg».proof.Proof.LibScatterGather
import Idealize.ShloMosaic.Lib.IdealHost
import Idealize.ShloMosaic.Lib.KernelVsHost
import Idealize.ShloMosaic.Lib.StackMember

noncomputable section

open scoped BigOperators

namespace Cert.RefSpec

open Cert.ReferenceIdeal Cert.ReferenceIdeal.Gen Cert.ReferenceIdeal.Read Idealize.ShloMosaic Idealize.ShloMosaic.ValueIdx

theorem bcast_col_apply {α : Type} {n m : Nat} (h : (⟨2, ![n, 1]⟩ : Shape).BroadcastsInDim ⟨2, ![n, m]⟩ ![0, 1])
    (c : (⟨2, ![n, 1]⟩ : Shape).Idx → α) (p : Fin n) (q : Fin m) :
    broadcastInDim ⟨2, ![n, m]⟩ ![0, 1] h c (ix2 p q) = c (ix2 p (0 : Fin 1)) := by
  refine broadcastInDim_apply ![0, 1] h c (ix2 p q) (ix2 p (0 : Fin 1)) ?_
  intro a
  match a with
  | ⟨0, _⟩ =>
    show p.val = if n = 1 then 0 else p.val
    split
    · have := p.isLt; omega
    · rfl
  | ⟨1, _⟩ =>
    show 0 = if (1 : ℕ) = 1 then 0 else q.val
    rw [if_pos rfl]

theorem col_of_vector {α : Type} {n : Nat} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  refine broadcastInDim_apply ![0] h v (ix2 p u) (ix1 p) ?_
  intro a
  match a with
  | ⟨0, _⟩ =>
    show p.val = if n = 1 then 0 else p.val
    split
    · have := p.isLt; omega
    · rfl

theorem row_of_vector {α : Type} {m : Nat} (h : (⟨1, ![m]⟩ : Shape).BroadcastsInDim ⟨2, ![1, m]⟩ ![1])
    (b : (⟨1, ![m]⟩ : Shape).Idx → α) (c : Fin m) :
    broadcastInDim ⟨2, ![1, m]⟩ ![1] h b (ix2 (0 : Fin 1) c) = b (ix1 c) := by
  refine broadcastInDim_apply ![1] h b (ix2 (0 : Fin 1) c) (ix1 c) fun a => ?_
  match a with
  | ⟨0, _⟩ =>
    show c.val = if m = 1 then 0 else c.val
    split
    · have := c.isLt; omega
    · rfl

def normsOf (c0 c1 : Cert.Spec.Arr 100000 1) : Cert.Spec.Arr 100000 2 :=
  fun i => if (i 1).val = 0 then c0 (ix2 (i 0) (0 : Fin 1)) else c1 (ix2 (i 0) (0 : Fin 1))

theorem normsOf_zero (c0 c1 : Cert.Spec.Arr 100000 1) (n : Fin 100000) :
    normsOf c0 c1 (ix2 n (0 : Fin 2)) = c0 (ix2 n (0 : Fin 1)) := by
  show (if (0 : Fin 2).val = 0 then c0 (ix2 n (0 : Fin 1)) else c1 (ix2 n (0 : Fin 1))) = _
  rw [if_pos (show (0 : Fin 2).val = 0 from rfl)]

theorem normsOf_one (c0 c1 : Cert.Spec.Arr 100000 1) (n : Fin 100000) :
    normsOf c0 c1 (ix2 n (1 : Fin 2)) = c1 (ix2 n (0 : Fin 1)) := by
  show (if (1 : Fin 2).val = 0 then c0 (ix2 n (0 : Fin 1)) else c1 (ix2 n (0 : Fin 1))) = _
  rw [if_neg (by decide)]

def rowR (b : FVec Ideal S128 .f32) : Cert.Spec.Arr 1 128 := fun i => b (ix1 (i 1))

theorem rowR_apply (b : FVec Ideal S128 .f32) (u : Fin 1) (d : Fin 128) : rowR b (ix2 u d) = b (ix1 d) := rfl

def normsR (x1 x2 : IVec S1600000 32) : Cert.Spec.Arr 100000 2 :=
  normsOf (val_main_v20 (F := Ideal) x1) (val_main_v22 (F := Ideal) x2)

theorem normsR_zero (x1 x2 : IVec S1600000 32) (n : Fin 100000) :
    normsR x1 x2 (ix2 n (0 : Fin 2)) = val_main_v20 (F := Ideal) x1 (ix2 n (0 : Fin 1)) := normsOf_zero _ _ n

theorem normsR_one (x1 x2 : IVec S1600000 32) (n : Fin 100000) :
    normsR x1 x2 (ix2 n (1 : Fin 2)) = val_main_v22 (F := Ideal) x2 (ix2 n (0 : Fin 1)) := normsOf_one _ _ n

def aggR (h : FVec Ideal S100000x128 .f32) (x1 x2 : IVec S1600000 32) :
    FVec Ideal S100000x128 .f32 :=
  Host.scatterAdd (F := Ideal) (φ := .f32) scatter_S100000x128_S1600000x1_S1600000x128_1_0_0_1 (val_main_v32 (F := Ideal)) (val_main_v33 (F := Ideal) x2)
    (Host.gather gather_S100000x128_S1600000x1_S1600000x128_1_0_n_n_0_1_1128 h (val_main_v30 (F := Ideal) x1))

theorem ref_h0 (x0 : FVec Ideal S100000x128 .f32) (x1 : IVec S1600000 32) :
    val_main_v24 (F := Ideal) x0 x1 = Cert.Spec.scaleRows x0 (val_main_v20 (F := Ideal) x1) := by
  funext i
  obtain ⟨n, d, rfl⟩ : ∃ (n : Fin 100000) (d : Fin 128), i = ix2 n d := ⟨i 0, i 1, eq_ix2 i⟩
  unfold val_main_v24 val_main_v23
  rw [mulf_apply, bcast_col_apply]
  rfl

theorem dot_plain : dot_S100000x128_S128x128_S100000x128_1_0_0_1_n_n = DotDims.plain 100000 128 128 := rfl

-- The host's product plus the twice-broadcast bias is the dense layer, entry by entry.
theorem dense_generic (a : FVec Ideal S100000x128 .f32) (c0 c1 : FVec Ideal S100000x1 .f32)
    (w : FVec Ideal S128x128 .f32) (b : FVec Ideal S128 .f32) :
    addf (F := Ideal) (Host.dotGeneral (F := Ideal) dot_S100000x128_S128x128_S100000x128_1_0_0_1_n_n none
        (mulf (F := Ideal) a (broadcastInDim S100000x128 ![0, 1] bcast_S100000x1_S100000x128_0_1 c1)) w)
      (broadcastInDim S100000x128 ![0, 1] bcast_S1x128_S100000x128_0_1 (broadcastInDim S1x128 ![1] bcast_S128_S1x128_1 b))
      = Cert.Spec.dense a (normsOf c0 c1) w (rowR b) := by
  funext i
  obtain ⟨n, d, rfl⟩ : ∃ (n : Fin 100000) (d : Fin 128), i = ix2 n d := ⟨i 0, i 1, eq_ix2 i⟩
  rw [addf_apply, dot_plain, StackMember.dotGeneral_plain_apply, broadcastInDim_oneRow_apply, row_of_vector]
  unfold Cert.Spec.dense
  refine congrArg₂ (· + ·) (Finset.sum_congr rfl fun j _ => ?_) rfl
  show mulf (F := Ideal) a (broadcastInDim S100000x128 ![0, 1] bcast_S100000x1_S100000x128_0_1 c1) (ix2 n j) * w (ix2 j d)
    = (a (ix2 n j) * normsOf c0 c1 (ix2 n (1 : Fin 2))) * w (ix2 j d)
  rw [mulf_apply, bcast_col_apply, normsOf_one]

theorem layer_generic (a : FVec Ideal S100000x128 .f32) (c0 c1 : FVec Ideal S100000x1 .f32)
    (w : FVec Ideal S128x128 .f32) (b : FVec Ideal S128 .f32) :
    mulf (F := Ideal) (addf (F := Ideal) (Host.dotGeneral (F := Ideal) dot_S100000x128_S128x128_S100000x128_1_0_0_1_n_n none
          (mulf (F := Ideal) a (broadcastInDim S100000x128 ![0, 1] bcast_S100000x1_S100000x128_0_1 c1)) w)
        (broadcastInDim S100000x128 ![0, 1] bcast_S1x128_S100000x128_0_1 (broadcastInDim S1x128 ![1] bcast_S128_S1x128_1 b)))
      (broadcastInDim S100000x128 ![0, 1] bcast_S100000x1_S100000x128_0_1 c0)
      = Cert.Spec.layer a (normsOf c0 c1) w (rowR b) := by
  rw [dense_generic a c0 c1 w b]
  funext i
  obtain ⟨n, d, rfl⟩ : ∃ (n : Fin 100000) (d : Fin 128), i = ix2 n d := ⟨i 0, i 1, eq_ix2 i⟩
  rw [mulf_apply, bcast_col_apply]
  unfold Cert.Spec.layer
  show _ = _ * normsOf c0 c1 (ix2 n (0 : Fin 2))
  rw [normsOf_zero]

theorem ref_layer1 (x0 : FVec Ideal S100000x128 .f32) (x1 x2 : IVec S1600000 32)
    (x4 : FVec Ideal S128x128 .f32) (x5 : FVec Ideal S128 .f32) :
    val_main_v42 (F := Ideal) x0 x1 x2 x4 x5
      = Cert.Spec.layer (aggR (val_main_v24 (F := Ideal) x0 x1) x1 x2) (normsR x1 x2) x4 (rowR x5) :=
  layer_generic _ _ _ _ _

theorem ref_layer2 (x0 : FVec Ideal S100000x128 .f32) (x1 x2 : IVec S1600000 32)
    (x4 : FVec Ideal S128x128 .f32) (x5 : FVec Ideal S128 .f32) (x6 : FVec Ideal S128x128 .f32) (x7 : FVec Ideal S128 .f32) :
    val_main_v60 (F := Ideal) x0 x1 x2 x4 x5 x6 x7
      = Cert.Spec.layer (aggR (val_main_v42 (F := Ideal) x0 x1 x2 x4 x5) x1 x2) (normsR x1 x2) x6 (rowR x7) :=
  layer_generic _ _ _ _ _

theorem ref_layer3 (x0 : FVec Ideal S100000x128 .f32) (x1 x2 : IVec S1600000 32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) :
    val_main_v78 (F := Ideal) x0 x1 x2 x4 x5 x6 x7 x8 x9
      = Cert.Spec.layer (aggR (val_main_v60 (F := Ideal) x0 x1 x2 x4 x5 x6 x7) x1 x2) (normsR x1 x2) x8 (rowR x9) :=
  layer_generic _ _ _ _ _

theorem ref_layer4 (x0 : FVec Ideal S100000x128 .f32) (x1 x2 : IVec S1600000 32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (x10 : FVec Ideal S128x128 .f32) (x11 : FVec Ideal S128 .f32) :
    val_main_v96 (F := Ideal) x0 x1 x2 x4 x5 x6 x7 x8 x9 x10 x11
      = Cert.Spec.layer (aggR (val_main_v78 (F := Ideal) x0 x1 x2 x4 x5 x6 x7 x8 x9) x1 x2) (normsR x1 x2) x10 (rowR x11) :=
  layer_generic _ _ _ _ _

theorem ref_dense5 (x0 : FVec Ideal S100000x128 .f32) (x1 x2 : IVec S1600000 32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (x10 : FVec Ideal S128x128 .f32) (x11 : FVec Ideal S128 .f32)
    (x12 : FVec Ideal S128x128 .f32) (x13 : FVec Ideal S128 .f32) :
    val_main_v112 (F := Ideal) x0 x1 x2 x4 x5 x6 x7 x8 x9 x10 x11 x12 x13
      = Cert.Spec.dense (aggR (val_main_v96 (F := Ideal) x0 x1 x2 x4 x5 x6 x7 x8 x9 x10 x11) x1 x2) (normsR x1 x2) x12 (rowR x13) :=
  dense_generic _ (val_main_v20 (F := Ideal) x1) _ _ _

def gidR (x3 : IVec S100000 32) : IVec ⟨2, ![100000, 1]⟩ 32 := fun i => x3 (ix1 (i 0))

theorem gidR_apply (x3 : IVec S100000 32) (e : Fin 100000) (u : Fin 1) : gidR x3 (ix2 e u) = x3 (ix1 e) := rfl

-- The scatter-add of the rows from zeros is the pooled sum.
theorem pooled_apply (x3 : IVec S100000 32) (y : FVec Ideal S100000x128 .f32) (g : Fin 64) (d : Fin 128) :
    Host.scatterAdd (F := Ideal) (φ := .f32) scatter_S64x128_S100000x1_S100000x128_1_0_0_1 (val_main_v113 (F := Ideal))
        (val_main_v114 (F := Ideal) x3) y (ix2 g d)
      = Cert.Spec.pooled (G := 64) (gidR x3) y (ix2 g d) := by
  refine (Cert.Lib.scatterAdd_rows scatter_S64x128_S100000x1_S100000x128_1_0_0_1 rfl rfl rfl rfl
    (val_main_v113 (F := Ideal)) (val_main_v114 (F := Ideal) x3) y g d).trans ?_
  have hv : ∀ e : Fin 100000, val_main_v114 (F := Ideal) x3 (ix2 e (0 : Fin 1)) = x3 (ix1 e) :=
    fun e => col_of_vector bcast_S100000_S100000x1_0 x3 e 0
  rw [val_main_v113_apply, val_main_cst_22_apply, Ideal.ofBits_def, Ideal.ofBits_zero_f32, zero_add]
  unfold Cert.Spec.pooled
  refine Finset.sum_congr rfl fun e _ => ?_
  rw [hv e]
  rfl

-- The reference's last stages are the read-out of the pooled sums and the counts.
theorem ref_out (x0 : FVec Ideal S100000x128 .f32) (x1 x2 : IVec S1600000 32) (x3 : IVec S100000 32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (x10 : FVec Ideal S128x128 .f32) (x11 : FVec Ideal S128 .f32)
    (x12 : FVec Ideal S128x128 .f32) (x13 : FVec Ideal S128 .f32)
    (x14 : FVec Ideal S1x128 .f32) (x15 : FVec Ideal S1 .f32) :
    val_main_v134 (F := Ideal) x0 x1 x2 x3 x4 x5 x6 x7 x8 x9 x10 x11 x12 x13 x14 x15
      = Cert.Spec.readout
          (Cert.Spec.pooled (G := 64) (gidR x3) (val_main_v112 (F := Ideal) x0 x1 x2 x4 x5 x6 x7 x8 x9 x10 x11 x12 x13))
          (fun i => val_main_v119 (F := Ideal) x3 (ix1 (i 0))) x14 (fun _ => x15 (ix1 (0 : Fin 1))) := by
  funext i
  obtain ⟨g, u, rfl⟩ : ∃ (g : Fin 64) (u : Fin 1), i = ix2 g u := ⟨i 0, i 1, eq_ix2 i⟩
  obtain rfl : u = 0 := Subsingleton.elim _ _

  have hcnt : ∀ d : Fin 128, val_main_v122 (F := Ideal) x3 (ix2 g d) = max 1 (val_main_v119 (F := Ideal) x3 (ix1 g)) := by
    intro d
    unfold val_main_v122 val_main_v121
    rw [bcast_col_apply, col_of_vector, val_main_v120_apply, val_main_call2_v1_apply, val_main_call2_v0_apply,
      val_main_cst_25_apply, Ideal.maximumf_def, Ideal.ofBits_def, Ideal.ofBits_one_f32]

  have hmean : ∀ d : Fin 128, val_main_v123 (F := Ideal) x0 x1 x2 x3 x4 x5 x6 x7 x8 x9 x10 x11 x12 x13 (ix2 g d)
      = Ideal.div (Cert.Spec.pooled (G := 64) (gidR x3) (val_main_v112 (F := Ideal) x0 x1 x2 x4 x5 x6 x7 x8 x9 x10 x11 x12 x13) (ix2 g d))
          (max 1 (val_main_v119 (F := Ideal) x3 (ix1 g))) := by
    intro d
    rw [val_main_v123_apply, hcnt d, Ideal.hostDivf_def]
    unfold val_main_v115
    rw [pooled_apply]

  have hl : ∀ k : Fin 128, lidx_main_v125 (ix2 g (0 : Fin 1)) k = ix2 g k :=
    fun k => funext fun a => match a with
      | ⟨0, _⟩ => rfl
      | ⟨1, _⟩ => rfl
  have hr : ∀ k : Fin 128, val_main_v124 (F := Ideal) x14 (ridx_main_v125 (ix2 g (0 : Fin 1)) k) = x14 (ix2 (0 : Fin 1) k) := by
    intro k
    rw [val_main_v124_apply]
    refine congrArg x14 (funext fun a => ?_)
    match a with
    | ⟨0, _⟩ => rfl
    | ⟨1, _⟩ => rfl
  have hsum : (∑ k : Fin 128, (val_main_v123 (F := Ideal) x0 x1 x2 x3 x4 x5 x6 x7 x8 x9 x10 x11 x12 x13) (lidx_main_v125 (ix2 g (0 : Fin 1)) k)
        * (val_main_v124 (F := Ideal) x14) (ridx_main_v125 (ix2 g (0 : Fin 1)) k))
      = ∑ d : Fin 128, Ideal.div (Cert.Spec.pooled (G := 64) (gidR x3) (val_main_v112 (F := Ideal) x0 x1 x2 x4 x5 x6 x7 x8 x9 x10 x11 x12 x13) (ix2 g d))
          (max 1 (val_main_v119 (F := Ideal) x3 (ix1 g))) * x14 (ix2 (0 : Fin 1) d) :=
    Finset.sum_congr rfl fun k _ => by rw [hl k, hr k, hmean k]

  have hb : val_main_v127 (F := Ideal) x15 (ix2 g (0 : Fin 1)) = x15 (ix1 (0 : Fin 1)) := by
    unfold val_main_v127 val_main_v126
    rw [broadcastInDim_oneRow_apply, row_of_vector]
  rw [val_main_v134_apply, val_main_v133_apply, val_main_cst_27_apply, val_main_v132_apply, val_main_v131_apply,
    val_main_cst_26_apply, val_main_v130_apply, val_main_v129_apply, val_main_v128_apply, val_main_v125_apply, hsum, hb]
  simp only [Ideal.hostDivf_def, Ideal.addf_def, Ideal.hostUnary_exp_def, Ideal.hostNegf_def, Ideal.negf_def, Ideal.ofBits_def,
    Ideal.ofBits_one_f32]
  rfl

end Cert.RefSpec

end
-- ==== Proof.Bridge.lean ====
import proofs.«421459_j2104533975239_3_alg».proof.Proof.KI.Stages
import proofs.«421459_j2104533975239_3_alg».proof.Proof.RefSpec
import proofs.«421459_j2104533975239_3_alg».proof.Proof.LibKeepdims
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx

theorem agg_eq (h : Cert.KernelIdeal.S100000x128.Idx → EReal) (x1 x2 : IVec Cert.KernelIdeal.S1600000 32) :
    Cert.KernelIdeal.Stage.aggK (F := Ideal) h x1 x2 = Cert.RefSpec.aggR h x1 x2 := rfl

theorem norm_eq1 (x : IVec Cert.KernelIdeal.S1600000 32) :
    Cert.KernelIdeal.Stage.normK (F := Ideal) x = Cert.ReferenceIdeal.Read.val_main_v20 (F := Ideal) x := rfl

theorem norm_eq2 (x : IVec Cert.KernelIdeal.S1600000 32) :
    Cert.KernelIdeal.Stage.normK (F := Ideal) x = Cert.ReferenceIdeal.Read.val_main_v22 (F := Ideal) x := rfl

-- Column 0 of the concatenation is the source-side norm, column 1 the destination-side.
theorem norms_eq (x1 x2 : IVec Cert.KernelIdeal.S1600000 32) :
    (Cert.KernelIdeal.Stage.normsK (F := Ideal) x1 x2 : (⟨2, ![100000, 2]⟩ : Shape).Idx → EReal)
      = Cert.RefSpec.normsR x1 x2 := by
  funext i
  obtain ⟨n, u, rfl⟩ : ∃ (n : Fin 100000) (u : Fin 2), i = ix2 n u := ⟨i 0, i 1, eq_ix2 i⟩
  unfold Cert.KernelIdeal.Stage.normsK
  match u with
  | ⟨0, _⟩ =>
    refine (concatenate_pair_apply_left (t := Cert.KernelIdeal.S100000x2) (s₁ := Cert.KernelIdeal.S100000x1)
      (s₂ := Cert.KernelIdeal.S100000x1) _ _ _ _ (ix2 n (0 : Fin 2)) rfl (ix2 n (0 : Fin 1)) ?_).trans ?_
    · intro b
      match b with
      | ⟨0, _⟩ => rfl
      | ⟨1, _⟩ => rfl
    · rw [norm_eq1]
      exact (Cert.RefSpec.normsR_zero x1 x2 n).symm
  | ⟨1, _⟩ =>
    refine (concatenate_pair_apply_right (t := Cert.KernelIdeal.S100000x2) (s₁ := Cert.KernelIdeal.S100000x1)
      (s₂ := Cert.KernelIdeal.S100000x1) _ _ _ _ (ix2 n (1 : Fin 2)) rfl rfl (ix2 n (0 : Fin 1)) ?_ ?_).trans ?_
    · intro b hb
      match b with
      | ⟨0, _⟩ => rfl
      | ⟨1, _⟩ => exact absurd rfl hb
    · rfl
    · rw [norm_eq2]
      exact (Cert.RefSpec.normsR_one x1 x2 n).symm

theorem row_eq (b : FVec Ideal Cert.KernelIdeal.S128 .f32) :
    (Cert.KernelIdeal.Stage.rowK (F := Ideal) b : (⟨2, ![1, 128]⟩ : Shape).Idx → EReal) = Cert.RefSpec.rowR b := by
  funext i
  obtain ⟨u, d, rfl⟩ : ∃ (u : Fin 1) (d : Fin 128), i = ix2 u d := ⟨i 0, i 1, eq_ix2 i⟩
  rw [Cert.RefSpec.rowR_apply]
  unfold Cert.KernelIdeal.Stage.rowK
  refine shapeCast_apply b _ (ix2 u d) (ix1 d) ?_
  rw [Shape.rowMajor_val_one, Shape.rowMajor_val_two]
  show d.val = u.val * 128 + d.val
  have hu : u.val = 0 := by omega
  omega

theorem col_eq (x3 : IVec Cert.KernelIdeal.S100000 32) :
    Cert.KernelIdeal.Stage.colK (F := Ideal) x3 = Cert.RefSpec.gidR x3 := by
  funext i
  obtain ⟨e, u, rfl⟩ : ∃ (e : Fin 100000) (u : Fin 1), i = ix2 e u := ⟨i 0, i 1, eq_ix2 i⟩
  rw [Cert.RefSpec.gidR_apply]
  unfold Cert.KernelIdeal.Stage.colK
  exact Cert.Keepdims.shapeCast_a_a1_apply x3 _ e u

theorem one_eq (b : FVec Ideal Cert.KernelIdeal.S1 .f32) :
    (Cert.KernelIdeal.Stage.oneK (F := Ideal) b : (⟨2, ![1, 1]⟩ : Shape).Idx → EReal) = fun _ => b (ix1 (0 : Fin 1)) := by
  funext i
  obtain ⟨u, v, rfl⟩ : ∃ (u : Fin 1) (v : Fin 1), i = ix2 u v := ⟨i 0, i 1, eq_ix2 i⟩
  obtain rfl : u = 0 := Subsingleton.elim _ _
  unfold Cert.KernelIdeal.Stage.oneK
  exact Cert.Keepdims.shapeCast_a_a1_apply b _ 0 v

theorem cnt_eq (x3 : IVec Cert.KernelIdeal.S100000 32) :
    (Cert.KernelIdeal.Stage.cntK (F := Ideal) x3 : (⟨2, ![64, 1]⟩ : Shape).Idx → EReal)
      = fun i => Cert.ReferenceIdeal.Read.val_main_v119 (F := Ideal) x3 (ix1 (i 0)) := by
  funext i
  obtain ⟨g, u, rfl⟩ : ∃ (g : Fin 64) (u : Fin 1), i = ix2 g u := ⟨i 0, i 1, eq_ix2 i⟩
  unfold Cert.KernelIdeal.Stage.cntK
  refine (Cert.Keepdims.shapeCast_a_a1_apply _ _ g u).trans ?_
  exact congrFun (rfl : _ = Cert.ReferenceIdeal.Read.val_main_v119 (F := Ideal) x3) (ix1 g)

end Cert.Bridge

end
-- ==== Proof.Algebraic.lean ====
import proofs.«421459_j2104533975239_3_alg».proof.Proof.KI.Chain
import proofs.«421459_j2104533975239_3_alg».proof.Proof.Bridge
import proofs.«421459_j2104533975239_3_alg».proof.Proof.RefSpec

set_option maxRecDepth 16384

noncomputable section

namespace Cert.Algebraic

open Cert.KernelIdeal Cert.KernelIdeal.Gen Cert.KernelIdeal.Stage Cert.KernelIdeal.Value
open Cert.ReferenceIdeal.Read Cert.RefSpec Cert.Bridge
open Idealize.ShloMosaic Idealize.ShloMosaic.TcCoe

variable (m : (ℓ : Loc nD τ sig) → Buf (Elt Ideal) ℓ)

-- Both results are the same composition of rescale, five aggregations and dense layers, pooling and read-out.
theorem kernel_ref (c : Dev nD) :
    (outsF m 16 main_v96 c : S64x1.Idx → EReal)
      = val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [result_eq m c, out4_eq m c, out3_eq m c, out2_eq m c, out1_eq m c, out0_eq m c]
  rw [ref_out, ref_dense5, ref_layer4, ref_layer3, ref_layer2, ref_layer1, ref_h0]
  simp only [agg_eq, norms_eq, row_eq, col_eq, one_eq, cnt_eq, norm_eq1]

end Cert.Algebraic

end
-- ==== Proof.lean ====
import proofs.«421459_j2104533975239_3_alg».proof.Defs
import proofs.«421459_j2104533975239_3_alg».proof.Proof.Gen.Kernel
import proofs.«421459_j2104533975239_3_alg».proof.Proof.Gen.KernelIdeal
import proofs.«421459_j2104533975239_3_alg».proof.Proof.Gen.ReferenceIdeal
import proofs.«421459_j2104533975239_3_alg».proof.Proof.Gen.Pre_finite_inputs
import proofs.«421459_j2104533975239_3_alg».proof.Proof.K.Run
import proofs.«421459_j2104533975239_3_alg».proof.Proof.KI.Run
import proofs.«421459_j2104533975239_3_alg».proof.Proof.Algebraic
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame_main m ρ

theorem frame_ki : @Cert.frame_KernelIdeal Cert.KernelIdeal.Gen.facts Cert.Pre_finite_inputs.Gen.facts :=
  fun m ρ _ => Cert.KernelIdeal.Gen.frame_main m ρ

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.outsF m 16 Cert.KernelIdeal.main_v96 c, Cert.KernelIdeal.Gen.run_main m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v134_eq m' c, h0, h1, h2, h3, h4, h5, h6, h7, h8, h9, h10, h11, h12, h13, h14, h15]
  exact (Cert.Algebraic.kernel_ref m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
